-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S1x1 : Shape := ⟨2, ![1, 1]⟩
abbrev S256x2048 : Shape := ⟨2, ![256, 2048]⟩
abbrev S256 : Shape := ⟨1, ![256]⟩
abbrev S256x256 : Shape := ⟨2, ![256, 256]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S256 .f32) (main_arg10 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x2048 .f32) (main_arg1 : FVec F S2048x2048 .f32) (main_arg2 : FVec F S1x1 .f32) (main_arg3 : FVec F S256x2048 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_arg7 main_arg8 main_arg9 main_arg10 main_v13 main_v16
-- ==== Kernel.lean ====
abbrev S2048x2048 : Shape := ⟨2, ![2048, 2048]⟩
abbrev S1x1 : Shape := ⟨2, ![1, 1]⟩
abbrev S256x2048 : Shape := ⟨2, ![256, 2048]⟩
abbrev S256 : Shape := ⟨1, ![256]⟩
abbrev S256x256 : Shape := ⟨2, ![256, 256]⟩
abbrev S1x256 : Shape := ⟨2, ![1, 256]⟩
abbrev S2048x256 : Shape := ⟨2, ![2048, 256]⟩
abbrev S128x2048 : Shape := ⟨2, ![128, 2048]⟩
abbrev S1024x512 : Shape := ⟨2, ![1024, 512]⟩
abbrev S128x256 : Shape := ⟨2, ![128, 256]⟩
abbrev S512x256 : Shape := ⟨2, ![512, 256]⟩
abbrev S1024x256 : Shape := ⟨2, ![1024, 256]⟩
abbrev S2048 : Shape := ⟨1, ![2048]⟩
abbrev S2048x1 : Shape := ⟨2, ![2048, 1]⟩

abbrev nBuf : Space → Nat
  | .hbm => 18
  | .vmem => 25
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x1, .f32⟩
  | .hbm, ⟨3, _⟩ => ⟨S256x2048, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S2048x256, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x1, .f32⟩
  | .local _ .vmem, ⟨13, _⟩ => ⟨S256x2048, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S256x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S2048x256, .f32⟩
  | .local _ .vmem, ⟨22, _⟩ => ⟨S2048x256, .bf16⟩
  | .local _ .vmem, ⟨23, _⟩ => ⟨S2048x256, .f32⟩
  | .local _ .vmem, ⟨24, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![4], ![false]⟩

def k0_off1 (i : grid0.Coords) (c0_i32_4 : BitVec 32) : Fin 2 → Nat :=
  let arg0 : BitVec 32 := BitVec.ofNat 32 (i 0).val
  let c512_i32 : BitVec 32 := 512#32
  let v8 : BitVec 32 := Scalar.muli arg0 c512_i32
  let v9 : BitVec 32 := Scalar.addi v8 c0_i32_4
  let v10 : Index := Scalar.indexCast v9
  let c0_5 : Index := 0#32
  ![v10.toNat, 0]
def k0_cond4 (i : grid0.Coords) : BitVec 1 :=
  let arg0 : BitVec 32 := BitVec.ofNat 32 (i 0).val
  let c3_i32 : BitVec 32 := 3#32
  let v60 : BitVec 1 := Scalar.cmpi .eq arg0 c3_i32
  let v61 : BitVec 32 := Scalar.extui v60
  let c0_i32_37 : BitVec 32 := 0#32
  let v62 : BitVec 1 := Scalar.cmpi .ne v61 c0_i32_37
  v62

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

class Facts₀ : Prop where
  shapeCasts_S256_S1x256 : S256.ShapeCasts S1x256
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  shapeCasts_S256x2048_S256x2048 : S256x2048.ShapeCasts S256x2048
  packedbf16_S256x2048_S256x2048_0_0 : (Rect.unit (s := S256x2048) ![0, 0] S256x2048.size inb_S256x2048_S256x2048_0_0).PackedRows (EltTy.packing .bf16)
  inb_S128x2048_S128x2048_0_0 : ∀ a, (![0, 0] : Fin 2 → Nat) a + S128x2048.size a ≤ S128x2048.size a
  h_S128x2048 : 0 < S128x2048.numel
  h_S128x256 : 0 < S128x256.numel
  shapeCasts_S128x256_S128x256 : S128x256.ShapeCasts S128x256
  concatenates_S128x256_S128x256_S128x256_S128x256_S512x256_d0 : Shape.Concatenates [S128x256, S128x256, S128x256, S128x256] S512x256 0
  inb_S1024x512_S1024x512_0_0 : ∀ a, (![0, 0] : Fin 2 → Nat) a + S1024x512.size a ≤ S1024x512.size a
  h_S1024x512 : 0 < S1024x512.numel
  inb_S2048x256_S1024x256_0_0 : ∀ a, (![0, 0] : Fin 2 → Nat) a + S1024x256.size a ≤ S2048x256.size a
  h_S1024x256 : 0 < S1024x256.numel
  shapeCasts_S1024x256_S1024x256 : S1024x256.ShapeCasts S1024x256
  inb_S2048x256_S1024x256_1024_0 : ∀ a, (![1024, 0] : Fin 2 → Nat) a + S1024x256.size a ≤ S2048x256.size a
  inb_S2048x256_S2048x256_0_0 : ∀ a, (![0, 0] : Fin 2 → Nat) a + S2048x256.size a ≤ S2048x256.size a
  h_S2048x256 : 0 < S2048x256.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  inb_S256x256_S256x256_0_0 : ∀ a, (![0, 0] : Fin 2 → Nat) a + S256x256.size a ≤ S256x256.size a
  h_S256x256 : 0 < S256x256.numel
  dot_S128x2048_S256x2048_S128x256_1_1_0_0_n_n_wf : DotDims.WF S128x2048 S256x2048 S128x256 [1] [1] [0] [0] [] []
  dot_S1024x512_S512x256_S1024x256_1_0_0_1_n_n_wf : DotDims.WF S1024x512 S512x256 S1024x256 [1] [0] [0] [1] [] []
  dot_S2048x256_S256x256_S2048x256_1_1_0_0_n_n_wf : DotDims.WF S2048x256 S256x256 S2048x256 [1] [1] [0] [0] [] []
  hrank0 : 0 < grid0.rank
  k0_off1_inb : ∀ i : grid0.Coords, ∀ (r : Fin 4), ∀ a, (k0_off1 i (BitVec.ofNat 32 (128 * r.val))) a + S128x256.size a ≤ S2048x256.size a
  k0_off1_packedbf16 : ∀ i : grid0.Coords, ∀ (r : Fin 4), (Rect.unit (s := S2048x256) (k0_off1 i (BitVec.ofNat 32 (128 * r.val))) S128x256.size (k0_off1_inb i r)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S2048x2048.size a
  hwx0_0 : ∀ i : grid0.Coords, EltTy.bits .f32 = 32 ∨ (Rect.block (s := S2048x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S2048x2048.size a
  hwx0_1 : ∀ i : grid0.Coords, EltTy.bits .f32 = 32 ∨ (Rect.block (s := S2048x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S2048x2048.size a
  hwx0_2 : ∀ i : grid0.Coords, EltTy.bits .f32 = 32 ∨ (Rect.block (s := S2048x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S2048x2048.size a
  hwx0_3 : ∀ i : grid0.Coords, EltTy.bits .f32 = 32 ∨ (Rect.block (s := S2048x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S2048x2048.size a
  hwx0_4 : ∀ i : grid0.Coords, EltTy.bits .f32 = 32 ∨ (Rect.block (s := S2048x2048) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S2048x2048.size a
  hwx0_5 : ∀ i : grid0.Coords, EltTy.bits .f32 = 32 ∨ (Rect.block (s := S2048x2048) S1024x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S256x2048.size a
  hwx0_7 : ∀ i : grid0.Coords, EltTy.bits .f32 = 32 ∨ (Rect.block (s := S256x2048) S256x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2048x256.size a ≤ S2048x256.size a
  hwx0_15 : ∀ i : grid0.Coords, EltTy.bits .f32 = 32 ∨ (Rect.block (s := S2048x256) S2048x256.size (cc0_transform_15 i) (hinb0_15 i)).WholeWords (EltTy.packing .f32)

variable [Facts₀]

def dot_S128x2048_S256x2048_S128x256_1_1_0_0_n_n : DotDims S128x2048 S256x2048 S128x256 where
  lhsContracting := [1]
  rhsContracting := [1]
  lhsNonContracting := [0]
  rhsNonContracting := [0]
  lhsBatch := []
  rhsBatch := []
  wf := dot_S128x2048_S256x2048_S128x256_1_1_0_0_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S256x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S2048x256.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond4 i == 1#1) | ⟨_ + 16, h⟩ => absurd h (Nat.not_lt.2 (Nat.le_add_left _ _))

class Facts : Prop extends Facts₀ where

variable [Facts]
-- ==== ReferenceIdeal.lean ====
abbrev S2048x2048 : Shape := ⟨2, ![2048, 2048]⟩
abbrev S1x1 : Shape := ⟨2, ![1, 1]⟩
abbrev S256x2048 : Shape := ⟨2, ![256, 2048]⟩
abbrev S256 : Shape := ⟨1, ![256]⟩
abbrev S256x256 : Shape := ⟨2, ![256, 256]⟩
abbrev S2048x256 : Shape := ⟨2, ![2048, 256]⟩
abbrev S1x256 : Shape := ⟨2, ![1, 256]⟩
abbrev S_ : Shape := ⟨0, ![]⟩
abbrev S2048 : Shape := ⟨1, ![2048]⟩
abbrev S2048x1 : Shape := ⟨2, ![2048, 1]⟩

abbrev nBuf : Space → Nat
  | .hbm => 119
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x1, .f32⟩
  | .hbm, ⟨3, _⟩ => ⟨S256x2048, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x256, .f32⟩
  | .hbm, ⟨16, _⟩ => ⟨S2048x256, .f32⟩
  | .hbm, ⟨17, _⟩ => ⟨S1x256, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .i32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x256, .f32⟩
  | .hbm, ⟨51, _⟩ => ⟨S2048x256, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x1, .f32⟩
  | .hbm, ⟨56, _⟩ => ⟨S2048x256, .f32⟩
  | .hbm, ⟨57, _⟩ => ⟨S2048x256, .f32⟩
  | .hbm, ⟨58, _⟩ => ⟨S1x256, .f32⟩
  | .hbm, ⟨59, _⟩ => ⟨S2048x256, .f32⟩
  | .hbm, ⟨60, _⟩ => ⟨S2048x256, .f32⟩
  | .hbm, ⟨61, _⟩ => ⟨S1x256, .f32⟩
  | .hbm, ⟨62, _⟩ => ⟨S2048x256, .f32⟩
  | .hbm, ⟨63, _⟩ => ⟨S2048x256, .f32⟩
  | .hbm, ⟨64, _⟩ => ⟨S_, .f32⟩
  | .hbm, ⟨65, _⟩ => ⟨S2048x256, .f32⟩
  | .hbm, ⟨66, _⟩ => ⟨S2048x256, .f32⟩
  | .hbm, ⟨67, _⟩ => ⟨S256x256, .f32⟩
  | .hbm, ⟨68, _⟩ => ⟨S2048x256, .f32⟩
  | .hbm, ⟨69, _⟩ => ⟨S1x256, .f32⟩
  | .hbm, ⟨70, _⟩ => ⟨S2048x256, .f32⟩
  | .hbm, ⟨71, _⟩ => ⟨S2048x256, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .i32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S2048x256, .f32⟩
  | .hbm, ⟨86, _⟩ => ⟨S2048x256, .f32⟩
  | .hbm, ⟨87, _⟩ => ⟨S2048x256, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S2048, .f32⟩
  | .hbm, ⟨93, _⟩ => ⟨S2048x1, .f32⟩
  | .hbm, ⟨94, _⟩ => ⟨S2048x1, .f32⟩
  | .hbm, ⟨95, _⟩ => ⟨S2048x1, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S2048x1, .f32⟩
  | .hbm, ⟨101, _⟩ => ⟨S2048x1, .f32⟩
  | .hbm, ⟨102, _⟩ => ⟨S2048x256, .f32⟩
  | .hbm, ⟨103, _⟩ => ⟨S2048x256, .f32⟩
  | .hbm, ⟨104, _⟩ => ⟨S_, .f32⟩
  | .hbm, ⟨105, _⟩ => ⟨S2048x1, .f32⟩
  | .hbm, ⟨106, _⟩ => ⟨S2048x1, .f32⟩
  | .hbm, ⟨107, _⟩ => ⟨S2048x1, .f32⟩
  | .hbm, ⟨108, _⟩ => ⟨S2048x256, .f32⟩
  | .hbm, ⟨109, _⟩ => ⟨S2048x256, .f32⟩
  | .hbm, ⟨110, _⟩ => ⟨S1x256, .f32⟩
  | .hbm, ⟨111, _⟩ => ⟨S2048x256, .f32⟩
  | .hbm, ⟨112, _⟩ => ⟨S2048x256, .f32⟩
  | .hbm, ⟨113, _⟩ => ⟨S1x256, .f32⟩
  | .hbm, ⟨114, _⟩ => ⟨S2048x256, .f32⟩
  | .hbm, ⟨115, _⟩ => ⟨S2048x256, .f32⟩
  | .hbm, ⟨116, _⟩ => ⟨S_, .f32⟩
  | .hbm, ⟨117, _⟩ => ⟨S2048x256, .f32⟩
  | .hbm, ⟨118, _⟩ => ⟨S2048x256, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_1 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_call1_cst : Ref sig .tc := ⟨.hbm, 64, rfl⟩
abbrev main_call1_v0 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_2 : Ref sig .tc := ⟨.hbm, 72, rfl⟩
abbrev main_v33 : Ref sig .tc := ⟨.hbm, 73, rfl⟩
abbrev main_v34 : Ref sig .tc := ⟨.hbm, 74, rfl⟩
abbrev main_cst_3 : Ref sig .tc := ⟨.hbm, 75, rfl⟩
abbrev main_v35 : Ref sig .tc := ⟨.hbm, 76, rfl⟩
abbrev main_v36 : Ref sig .tc := ⟨.hbm, 77, rfl⟩
abbrev main_c_4 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_cst_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_cst_1 : Ref sig .tc := ⟨.hbm, 89, rfl⟩
abbrev main_call2_v8 : Ref sig .tc := ⟨.hbm, 90, rfl⟩
abbrev main_call2_cst_2 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_cst_3 : Ref sig .tc := ⟨.hbm, 96, rfl⟩
abbrev main_call2_v13 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_cst_5 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_call3_cst : Ref sig .tc := ⟨.hbm, 116, rfl⟩
abbrev main_call3_v0 : Ref sig .tc := ⟨.hbm, 117, rfl⟩
abbrev main_v51 : Ref sig .tc := ⟨.hbm, 118, rfl⟩

abbrev nD : Nat := 1
abbrev τ : Topo := Topo.v7x

variable {F : FTy → Type} [FloatOps F]

class Facts₀ : Prop where
  bcast_S1x1_S2048x2048_0_1 : S1x1.BroadcastsInDim S2048x2048 (![0, 1] : Fin 2 → Fin S2048x2048.rank)
  transposes_S256x2048_S2048x256_1_0 : S256x2048.Transposes [1, 0] S2048x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  bcast_S_S2048x256 : S_.BroadcastsInDim S2048x256 (![] : Fin 0 → Fin S2048x256.rank)
  transposes_S256x256_S256x256_1_0 : S256x256.Transposes [1, 0] S256x256
  dot_S2048x2048_S2048x2048_S2048x2048_1_0_0_1_n_n_wf : DotDims.WF S2048x2048 S2048x2048 S2048x2048 [1] [0] [0] [1] [] []
  dot_S2048x2048_S2048x256_S2048x256_1_0_0_1_n_n_wf : DotDims.WF S2048x2048 S2048x256 S2048x256 [1] [0] [0] [1] [] []
  dot_S2048x256_S256x256_S2048x256_1_0_0_1_n_n_wf : DotDims.WF S2048x256 S256x256 S2048x256 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

class Facts : Prop extends Facts₀ where

variable [Facts]
-- ==== Proof.OneText.lean ====
import proofs.«163186_g6957847020190_cont_9to1_m_143_23_alg».proof.Defs
import proofs.«163186_g6957847020190_cont_9to1_m_143_23_alg».proof.Proof.Gen.Kernel
import proofs.«163186_g6957847020190_cont_9to1_m_143_23_alg».proof.Proof.Gen.KernelIdeal

set_option maxRecDepth 16384

noncomputable section

namespace Cert.Proof

open Idealize.ShloMosaic Idealize.SL.Sem
open Cert.KernelIdeal

/-- Label by label the kernel as printed and its idealization call one body on the same buffers. -/
theorem defs₀_Kernel_eq {F : FTy → Type} [FloatOps F] :
    (Cert.Kernel.defs₀ (F := F) : Defs nD τ sig (Elt F) Λ₀) = defs₀ := by
  unfold Cert.Kernel.defs₀ defs₀
  congr 1; funext l a
  match l, a with
  | 0, (t, s) => rfl
  | ⟨n + 1, h⟩, _ => exact absurd h (by omega)

/-- So their body tables are equal. -/
theorem defs_Kernel_eq {F : FTy → Type} [FloatOps F] :
    (Cert.Kernel.defs (F := F) : Defs nD τ sig (Elt F) (Pipeline.Sig Λ₀ (Fin 1) fun p => (pcfgs (F := F) p).Adm)) = defs := by
  unfold Cert.Kernel.defs defs
  exact congrArg (Pipeline.defs (pcfgs (F := F))) defs₀_Kernel_eq

end Cert.Proof

end
-- ==== Proof.KI.Runs.lean ====
import proofs.«163186_g6957847020190_cont_9to1_m_143_23_alg».proof.Proof.Gen.KernelIdeal.Launch
import proofs.«163186_g6957847020190_cont_9to1_m_143_23_alg».proof.Proof.Gen.KernelIdeal.Skeleton
import proofs.«163186_g6957847020190_cont_9to1_m_143_23_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev condFirst (i : grid0.Coords) : Prop := (Scalar.cmpi .ne (Scalar.extui (Scalar.cmpi .eq (BitVec.ofNat 32 (i 0).val) 0#32)) 0#32) = 1#1

abbrev condLater (i : grid0.Coords) : Prop := (Scalar.cmpi .ne (Scalar.extui (Scalar.cmpi .sgt (BitVec.ofNat 32 (i 0).val) 0#32)) 0#32) = 1#1

abbrev condLast (i : grid0.Coords) : Prop := k0_cond4 i = 1#1

theorem hcondFirst : ∀ t : Fin cfg0.N, condFirst (grid0.coords t) ↔ t.val = 0 :=
  (by decide +kernel : ∀ t : Fin grid0.N, condFirst (grid0.coords t) ↔ t.val = 0)
theorem hcondLater : ∀ t : Fin cfg0.N, condLater (grid0.coords t) ↔ t.val ≠ 0 :=
  (by decide +kernel : ∀ t : Fin grid0.N, condLater (grid0.coords t) ↔ t.val ≠ 0)
theorem hcondLast : ∀ t : Fin cfg0.N, condLast (grid0.coords t) ↔ t.val = 3 :=
  (by decide +kernel : ∀ t : Fin grid0.N, condLast (grid0.coords t) ↔ t.val = 3)

abbrev scU : Memref sig .tc .vmem S2048x256 .bf16 := Memref.whole cc0_scratch0

abbrev scH : Memref sig .tc .vmem S2048x256 .f32 := Memref.whole cc0_scratch1

abbrev scW : Memref sig .tc .vmem S256x2048 .bf16 := Memref.whole cc0_scratch2

/-- The body's nineteen buffer operands, each given whole. -/
structure Ops where
  a1 : Memref sig .tc .vmem S128x2048 .f32
  h1 : a1.IsWhole
  a2 : Memref sig .tc .vmem S128x2048 .f32
  h2 : a2.IsWhole
  a3 : Memref sig .tc .vmem S128x2048 .f32
  h3 : a3.IsWhole
  a4 : Memref sig .tc .vmem S128x2048 .f32
  h4 : a4.IsWhole
  a5 : Memref sig .tc .vmem S1024x512 .f32
  h5 : a5.IsWhole
  a6 : Memref sig .tc .vmem S1024x512 .f32
  h6 : a6.IsWhole
  a7 : Memref sig .tc .vmem S1x1 .f32
  h7 : a7.IsWhole
  a8 : Memref sig .tc .vmem S256x2048 .f32
  h8 : a8.IsWhole
  a9 : Memref sig .tc .vmem S1x256 .f32
  h9 : a9.IsWhole
  a10 : Memref sig .tc .vmem S1x256 .f32
  h10 : a10.IsWhole
  a11 : Memref sig .tc .vmem S1x256 .f32
  h11 : a11.IsWhole
  a12 : Memref sig .tc .vmem S256x256 .f32
  h12 : a12.IsWhole
  a13 : Memref sig .tc .vmem S1x256 .f32
  h13 : a13.IsWhole
  a14 : Memref sig .tc .vmem S1x256 .f32
  h14 : a14.IsWhole
  a15 : Memref sig .tc .vmem S1x256 .f32
  h15 : a15.IsWhole
  a16 : Memref sig .tc .vmem S2048x256 .f32
  h16 : a16.IsWhole
  a17 : Memref sig .tc .vmem S2048x256 .bf16
  h17 : a17.IsWhole
  a18 : Memref sig .tc .vmem S2048x256 .f32
  h18 : a18.IsWhole
  a19 : Memref sig .tc .vmem S256x2048 .bf16
  h19 : a19.IsWhole

end Cert.KernelIdeal.Hand

end
-- ==== Proof.KI.RunA.lean ====
import proofs.«163186_g6957847020190_cont_9to1_m_143_23_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runFirst (c : Dev nD) (i : grid0.Coords) (B : Ops) (h1 : condFirst i) (h3 : ¬condLater i) (h4 : ¬condLast i)
    (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) :
    Σ' (L17 : List (View.Piece (Elt F) S2048x256 .bf16)), Σ' (L18 : List (View.Piece (Elt F) S2048x256 .f32)), { L19 : List (View.Piece (Elt F) S256x2048 .bf16) //
      ∀ (f16 : B.a16.view.ty.Contents (Elt F)) (f17 : B.a17.view.ty.Contents (Elt F)) (f18 : B.a18.view.ty.Contents (Elt F)) (f19 : B.a19.view.ty.Contents (Elt F)) (E : Set ℕ) (K : PUnit → sProp 𝕄),
        iprop(owns (c : Thread nD τ) B.a1 fullShare x1 ∗ owns (c : Thread nD τ) B.a2 fullShare x2 ∗ owns (c : Thread nD τ) B.a3 fullShare x3 ∗ owns (c : Thread nD τ) B.a4 fullShare x4 ∗ owns (c : Thread nD τ) B.a5 fullShare x5 ∗ owns (c : Thread nD τ) B.a6 fullShare x6 ∗ owns (c : Thread nD τ) B.a7 fullShare x7 ∗ owns (c : Thread nD τ) B.a8 fullShare x8 ∗ owns (c : Thread nD τ) B.a9 fullShare x9 ∗ owns (c : Thread nD τ) B.a10 fullShare x10 ∗ owns (c : Thread nD τ) B.a11 fullShare x11 ∗ owns (c : Thread nD τ) B.a12 fullShare x12 ∗ owns (c : Thread nD τ) B.a13 fullShare x13 ∗ owns (c : Thread nD τ) B.a14 fullShare x14 ∗ owns (c : Thread nD τ) B.a15 fullShare x15 ∗ (B.a16.view.loc (c : Thread nD τ) ↦[B.a16.view.set]{fullShare} f16) ∗ (B.a17.view.loc (c : Thread nD τ) ↦[B.a17.view.set]{fullShare} f17) ∗ (B.a18.view.loc (c : Thread nD τ) ↦[B.a18.view.set]{fullShare} f18) ∗ (B.a19.view.loc (c : Thread nD τ) ↦[B.a19.view.set]{fullShare} f19)
            ∗ (iprop(owns (c : Thread nD τ) B.a1 fullShare x1 ∗ owns (c : Thread nD τ) B.a2 fullShare x2 ∗ owns (c : Thread nD τ) B.a3 fullShare x3 ∗ owns (c : Thread nD τ) B.a4 fullShare x4 ∗ owns (c : Thread nD τ) B.a5 fullShare x5 ∗ owns (c : Thread nD τ) B.a6 fullShare x6 ∗ owns (c : Thread nD τ) B.a7 fullShare x7 ∗ owns (c : Thread nD τ) B.a8 fullShare x8 ∗ owns (c : Thread nD τ) B.a9 fullShare x9 ∗ owns (c : Thread nD τ) B.a10 fullShare x10 ∗ owns (c : Thread nD τ) B.a11 fullShare x11 ∗ owns (c : Thread nD τ) B.a12 fullShare x12 ∗ owns (c : Thread nD τ) B.a13 fullShare x13 ∗ owns (c : Thread nD τ) B.a14 fullShare x14 ∗ owns (c : Thread nD τ) B.a15 fullShare x15 ∗ (B.a16.view.loc (c : Thread nD τ) ↦[B.a16.view.set]{fullShare} f16) ∗ (B.a17.view.loc (c : Thread nD τ) ↦[B.a17.view.set]{fullShare} B.a17.view.writes (Elt F) f17 L17) ∗ (B.a18.view.loc (c : Thread nD τ) ↦[B.a18.view.set]{fullShare} B.a18.view.writes (Elt F) f18 L18) ∗ (B.a19.view.loc (c : Thread nD τ) ↦[B.a19.view.set]{fullShare} B.a19.view.writes (Elt F) f19 L19)) -∗ K ⟨⟩))
          ⊢ wp frame (wpE (defs₀ (F := F)) Variants.none c none) E (cc0__gin_kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19) K } := by
  refine ⟨?_, ?_, ?_, fun f16 f17 f18 f19 E K => ?run⟩
  case run =>
    simp only [cc0__gin_kernel_eq_skeleton]; unfold cc0__gin_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, H16, H17, H18, H19, Hk⟩
    obtain rfl := B.h1.eq_unread hf1; obtain rfl := B.h2.eq_unread hf2; obtain rfl := B.h3.eq_unread hf3; obtain rfl := B.h4.eq_unread hf4; obtain rfl := B.h5.eq_unread hf5; obtain rfl := B.h6.eq_unread hf6; obtain rfl := B.h7.eq_unread hf7; obtain rfl := B.h8.eq_unread hf8; obtain rfl := B.h9.eq_unread hf9; obtain rfl := B.h10.eq_unread hf10; obtain rfl := B.h11.eq_unread hf11; obtain rfl := B.h12.eq_unread hf12; obtain rfl := B.h13.eq_unread hf13; obtain rfl := B.h14.eq_unread hf14; obtain rfl := B.h15.eq_unread hf15
    sl_exec (disch := first | exact h1 | exact h3 | exact h4)
    sl_step
    iapply Hk
    isplitl [H1]
    · iexists _; isplitr; · ipureintro; exact B.h1.read_unread _
      iexact H1
    isplitl [H2]
    · iexists _; isplitr; · ipureintro; exact B.h2.read_unread _
      iexact H2
    isplitl [H3]
    · iexists _; isplitr; · ipureintro; exact B.h3.read_unread _
      iexact H3
    isplitl [H4]
    · iexists _; isplitr; · ipureintro; exact B.h4.read_unread _
      iexact H4
    isplitl [H5]
    · iexists _; isplitr; · ipureintro; exact B.h5.read_unread _
      iexact H5
    isplitl [H6]
    · iexists _; isplitr; · ipureintro; exact B.h6.read_unread _
      iexact H6
    isplitl [H7]
    · iexists _; isplitr; · ipureintro; exact B.h7.read_unread _
      iexact H7
    isplitl [H8]
    · iexists _; isplitr; · ipureintro; exact B.h8.read_unread _
      iexact H8
    isplitl [H9]
    · iexists _; isplitr; · ipureintro; exact B.h9.read_unread _
      iexact H9
    isplitl [H10]
    · iexists _; isplitr; · ipureintro; exact B.h10.read_unread _
      iexact H10
    isplitl [H11]
    · iexists _; isplitr; · ipureintro; exact B.h11.read_unread _
      iexact H11
    isplitl [H12]
    · iexists _; isplitr; · ipureintro; exact B.h12.read_unread _
      iexact H12
    isplitl [H13]
    · iexists _; isplitr; · ipureintro; exact B.h13.read_unread _
      iexact H13
    isplitl [H14]
    · iexists _; isplitr; · ipureintro; exact B.h14.read_unread _
      iexact H14
    isplitl [H15]
    · iexists _; isplitr; · ipureintro; exact B.h15.read_unread _
      iexact H15
    isplitl [H16]; · iexact H16
    isplitl [H17]; · iexact H17
    isplitl [H18]; · iexact H18
    iexact H19

end Cert.KernelIdeal.Hand

end
-- ==== Proof.KI.RunB.lean ====
import proofs.«163186_g6957847020190_cont_9to1_m_143_23_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runLater (c : Dev nD) (i : grid0.Coords) (B : Ops) (h1 : ¬condFirst i) (h3 : condLater i) (h4 : ¬condLast i)
    (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (x18 : Vec F S2048x256 .f32) (x19 : Vec F S256x2048 .bf16) :
    Σ' (L17 : List (View.Piece (Elt F) S2048x256 .bf16)), { L18 : List (View.Piece (Elt F) S2048x256 .f32) //
      ∀ (f16 : B.a16.view.ty.Contents (Elt F)) (f17 : B.a17.view.ty.Contents (Elt F)) (E : Set ℕ) (K : PUnit → sProp 𝕄),
        iprop(owns (c : Thread nD τ) B.a1 fullShare x1 ∗ owns (c : Thread nD τ) B.a2 fullShare x2 ∗ owns (c : Thread nD τ) B.a3 fullShare x3 ∗ owns (c : Thread nD τ) B.a4 fullShare x4 ∗ owns (c : Thread nD τ) B.a5 fullShare x5 ∗ owns (c : Thread nD τ) B.a6 fullShare x6 ∗ owns (c : Thread nD τ) B.a7 fullShare x7 ∗ owns (c : Thread nD τ) B.a8 fullShare x8 ∗ owns (c : Thread nD τ) B.a9 fullShare x9 ∗ owns (c : Thread nD τ) B.a10 fullShare x10 ∗ owns (c : Thread nD τ) B.a11 fullShare x11 ∗ owns (c : Thread nD τ) B.a12 fullShare x12 ∗ owns (c : Thread nD τ) B.a13 fullShare x13 ∗ owns (c : Thread nD τ) B.a14 fullShare x14 ∗ owns (c : Thread nD τ) B.a15 fullShare x15 ∗ (B.a16.view.loc (c : Thread nD τ) ↦[B.a16.view.set]{fullShare} f16) ∗ (B.a17.view.loc (c : Thread nD τ) ↦[B.a17.view.set]{fullShare} f17) ∗ owns (c : Thread nD τ) B.a18 fullShare x18 ∗ owns (c : Thread nD τ) B.a19 fullShare x19
            ∗ (iprop(owns (c : Thread nD τ) B.a1 fullShare x1 ∗ owns (c : Thread nD τ) B.a2 fullShare x2 ∗ owns (c : Thread nD τ) B.a3 fullShare x3 ∗ owns (c : Thread nD τ) B.a4 fullShare x4 ∗ owns (c : Thread nD τ) B.a5 fullShare x5 ∗ owns (c : Thread nD τ) B.a6 fullShare x6 ∗ owns (c : Thread nD τ) B.a7 fullShare x7 ∗ owns (c : Thread nD τ) B.a8 fullShare x8 ∗ owns (c : Thread nD τ) B.a9 fullShare x9 ∗ owns (c : Thread nD τ) B.a10 fullShare x10 ∗ owns (c : Thread nD τ) B.a11 fullShare x11 ∗ owns (c : Thread nD τ) B.a12 fullShare x12 ∗ owns (c : Thread nD τ) B.a13 fullShare x13 ∗ owns (c : Thread nD τ) B.a14 fullShare x14 ∗ owns (c : Thread nD τ) B.a15 fullShare x15 ∗ (B.a16.view.loc (c : Thread nD τ) ↦[B.a16.view.set]{fullShare} f16) ∗ (B.a17.view.loc (c : Thread nD τ) ↦[B.a17.view.set]{fullShare} B.a17.view.writes (Elt F) f17 L17) ∗ (B.a18.view.loc (c : Thread nD τ) ↦[B.a18.view.set]{fullShare} B.a18.view.writes (Elt F) (B.h18.unread x18) L18) ∗ owns (c : Thread nD τ) B.a19 fullShare x19) -∗ K ⟨⟩))
          ⊢ wp frame (wpE (defs₀ (F := F)) Variants.none c none) E (cc0__gin_kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19) K } := by
  refine ⟨?_, ?_, fun f16 f17 E K => ?run⟩
  case run =>
    simp only [cc0__gin_kernel_eq_skeleton]; unfold cc0__gin_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, H16, H17, ⟨%f18, %hf18, H18⟩, ⟨%f19, %hf19, H19⟩, Hk⟩
    obtain rfl := B.h1.eq_unread hf1; obtain rfl := B.h2.eq_unread hf2; obtain rfl := B.h3.eq_unread hf3; obtain rfl := B.h4.eq_unread hf4; obtain rfl := B.h5.eq_unread hf5; obtain rfl := B.h6.eq_unread hf6; obtain rfl := B.h7.eq_unread hf7; obtain rfl := B.h8.eq_unread hf8; obtain rfl := B.h9.eq_unread hf9; obtain rfl := B.h10.eq_unread hf10; obtain rfl := B.h11.eq_unread hf11; obtain rfl := B.h12.eq_unread hf12; obtain rfl := B.h13.eq_unread hf13; obtain rfl := B.h14.eq_unread hf14; obtain rfl := B.h15.eq_unread hf15; obtain rfl := B.h18.eq_unread hf18; obtain rfl := B.h19.eq_unread hf19
    sl_exec (disch := first | exact h1 | exact h3 | exact h4)
    sl_step
    iapply Hk
    isplitl [H1]
    · iexists _; isplitr; · ipureintro; exact B.h1.read_unread _
      iexact H1
    isplitl [H2]
    · iexists _; isplitr; · ipureintro; exact B.h2.read_unread _
      iexact H2
    isplitl [H3]
    · iexists _; isplitr; · ipureintro; exact B.h3.read_unread _
      iexact H3
    isplitl [H4]
    · iexists _; isplitr; · ipureintro; exact B.h4.read_unread _
      iexact H4
    isplitl [H5]
    · iexists _; isplitr; · ipureintro; exact B.h5.read_unread _
      iexact H5
    isplitl [H6]
    · iexists _; isplitr; · ipureintro; exact B.h6.read_unread _
      iexact H6
    isplitl [H7]
    · iexists _; isplitr; · ipureintro; exact B.h7.read_unread _
      iexact H7
    isplitl [H8]
    · iexists _; isplitr; · ipureintro; exact B.h8.read_unread _
      iexact H8
    isplitl [H9]
    · iexists _; isplitr; · ipureintro; exact B.h9.read_unread _
      iexact H9
    isplitl [H10]
    · iexists _; isplitr; · ipureintro; exact B.h10.read_unread _
      iexact H10
    isplitl [H11]
    · iexists _; isplitr; · ipureintro; exact B.h11.read_unread _
      iexact H11
    isplitl [H12]
    · iexists _; isplitr; · ipureintro; exact B.h12.read_unread _
      iexact H12
    isplitl [H13]
    · iexists _; isplitr; · ipureintro; exact B.h13.read_unread _
      iexact H13
    isplitl [H14]
    · iexists _; isplitr; · ipureintro; exact B.h14.read_unread _
      iexact H14
    isplitl [H15]
    · iexists _; isplitr; · ipureintro; exact B.h15.read_unread _
      iexact H15
    isplitl [H16]; · iexact H16
    isplitl [H17]; · iexact H17
    isplitl [H18]; · iexact H18
    iexists _; isplitr
    · ipureintro; exact B.h19.read_unread _
    iexact H19

end Cert.KernelIdeal.Hand

end
-- ==== Proof.KI.RunC.lean ====
import proofs.«163186_g6957847020190_cont_9to1_m_143_23_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runLast (c : Dev nD) (i : grid0.Coords) (B : Ops) (h1 : ¬condFirst i) (h3 : condLater i) (h4 : condLast i)
    (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (x17 : Vec F S2048x256 .bf16) (x18 : Vec F S2048x256 .f32) (x19 : Vec F S256x2048 .bf16) :
    Σ' (L16 : List (View.Piece (Elt F) S2048x256 .f32)), Σ' (L17 : List (View.Piece (Elt F) S2048x256 .bf16)), { L18 : List (View.Piece (Elt F) S2048x256 .f32) //
      ∀ (f16 : B.a16.view.ty.Contents (Elt F)) (E : Set ℕ) (K : PUnit → sProp 𝕄),
        iprop(owns (c : Thread nD τ) B.a1 fullShare x1 ∗ owns (c : Thread nD τ) B.a2 fullShare x2 ∗ owns (c : Thread nD τ) B.a3 fullShare x3 ∗ owns (c : Thread nD τ) B.a4 fullShare x4 ∗ owns (c : Thread nD τ) B.a5 fullShare x5 ∗ owns (c : Thread nD τ) B.a6 fullShare x6 ∗ owns (c : Thread nD τ) B.a7 fullShare x7 ∗ owns (c : Thread nD τ) B.a8 fullShare x8 ∗ owns (c : Thread nD τ) B.a9 fullShare x9 ∗ owns (c : Thread nD τ) B.a10 fullShare x10 ∗ owns (c : Thread nD τ) B.a11 fullShare x11 ∗ owns (c : Thread nD τ) B.a12 fullShare x12 ∗ owns (c : Thread nD τ) B.a13 fullShare x13 ∗ owns (c : Thread nD τ) B.a14 fullShare x14 ∗ owns (c : Thread nD τ) B.a15 fullShare x15 ∗ (B.a16.view.loc (c : Thread nD τ) ↦[B.a16.view.set]{fullShare} f16) ∗ owns (c : Thread nD τ) B.a17 fullShare x17 ∗ owns (c : Thread nD τ) B.a18 fullShare x18 ∗ owns (c : Thread nD τ) B.a19 fullShare x19
            ∗ (iprop(owns (c : Thread nD τ) B.a1 fullShare x1 ∗ owns (c : Thread nD τ) B.a2 fullShare x2 ∗ owns (c : Thread nD τ) B.a3 fullShare x3 ∗ owns (c : Thread nD τ) B.a4 fullShare x4 ∗ owns (c : Thread nD τ) B.a5 fullShare x5 ∗ owns (c : Thread nD τ) B.a6 fullShare x6 ∗ owns (c : Thread nD τ) B.a7 fullShare x7 ∗ owns (c : Thread nD τ) B.a8 fullShare x8 ∗ owns (c : Thread nD τ) B.a9 fullShare x9 ∗ owns (c : Thread nD τ) B.a10 fullShare x10 ∗ owns (c : Thread nD τ) B.a11 fullShare x11 ∗ owns (c : Thread nD τ) B.a12 fullShare x12 ∗ owns (c : Thread nD τ) B.a13 fullShare x13 ∗ owns (c : Thread nD τ) B.a14 fullShare x14 ∗ owns (c : Thread nD τ) B.a15 fullShare x15 ∗ (B.a16.view.loc (c : Thread nD τ) ↦[B.a16.view.set]{fullShare} B.a16.view.writes (Elt F) f16 L16) ∗ (B.a17.view.loc (c : Thread nD τ) ↦[B.a17.view.set]{fullShare} B.a17.view.writes (Elt F) (B.h17.unread x17) L17) ∗ (B.a18.view.loc (c : Thread nD τ) ↦[B.a18.view.set]{fullShare} B.a18.view.writes (Elt F) (B.h18.unread x18) L18) ∗ owns (c : Thread nD τ) B.a19 fullShare x19) -∗ K ⟨⟩))
          ⊢ wp frame (wpE (defs₀ (F := F)) Variants.none c none) E (cc0__gin_kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19) K } := by
  refine ⟨?_, ?_, ?_, fun f16 E K => ?run⟩
  case run =>
    simp only [cc0__gin_kernel_eq_skeleton]; unfold cc0__gin_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, H16, ⟨%f17, %hf17, H17⟩, ⟨%f18, %hf18, H18⟩, ⟨%f19, %hf19, H19⟩, Hk⟩
    obtain rfl := B.h1.eq_unread hf1; obtain rfl := B.h2.eq_unread hf2; obtain rfl := B.h3.eq_unread hf3; obtain rfl := B.h4.eq_unread hf4; obtain rfl := B.h5.eq_unread hf5; obtain rfl := B.h6.eq_unread hf6; obtain rfl := B.h7.eq_unread hf7; obtain rfl := B.h8.eq_unread hf8; obtain rfl := B.h9.eq_unread hf9; obtain rfl := B.h10.eq_unread hf10; obtain rfl := B.h11.eq_unread hf11; obtain rfl := B.h12.eq_unread hf12; obtain rfl := B.h13.eq_unread hf13; obtain rfl := B.h14.eq_unread hf14; obtain rfl := B.h15.eq_unread hf15; obtain rfl := B.h17.eq_unread hf17; obtain rfl := B.h18.eq_unread hf18; obtain rfl := B.h19.eq_unread hf19
    sl_exec (disch := first | exact h1 | exact h3 | exact h4)
    sl_step
    iapply Hk
    isplitl [H1]
    · iexists _; isplitr; · ipureintro; exact B.h1.read_unread _
      iexact H1
    isplitl [H2]
    · iexists _; isplitr; · ipureintro; exact B.h2.read_unread _
      iexact H2
    isplitl [H3]
    · iexists _; isplitr; · ipureintro; exact B.h3.read_unread _
      iexact H3
    isplitl [H4]
    · iexists _; isplitr; · ipureintro; exact B.h4.read_unread _
      iexact H4
    isplitl [H5]
    · iexists _; isplitr; · ipureintro; exact B.h5.read_unread _
      iexact H5
    isplitl [H6]
    · iexists _; isplitr; · ipureintro; exact B.h6.read_unread _
      iexact H6
    isplitl [H7]
    · iexists _; isplitr; · ipureintro; exact B.h7.read_unread _
      iexact H7
    isplitl [H8]
    · iexists _; isplitr; · ipureintro; exact B.h8.read_unread _
      iexact H8
    isplitl [H9]
    · iexists _; isplitr; · ipureintro; exact B.h9.read_unread _
      iexact H9
    isplitl [H10]
    · iexists _; isplitr; · ipureintro; exact B.h10.read_unread _
      iexact H10
    isplitl [H11]
    · iexists _; isplitr; · ipureintro; exact B.h11.read_unread _
      iexact H11
    isplitl [H12]
    · iexists _; isplitr; · ipureintro; exact B.h12.read_unread _
      iexact H12
    isplitl [H13]
    · iexists _; isplitr; · ipureintro; exact B.h13.read_unread _
      iexact H13
    isplitl [H14]
    · iexists _; isplitr; · ipureintro; exact B.h14.read_unread _
      iexact H14
    isplitl [H15]
    · iexists _; isplitr; · ipureintro; exact B.h15.read_unread _
      iexact H15
    isplitl [H16]; · iexact H16
    isplitl [H17]; · iexact H17
    isplitl [H18]; · iexact H18
    iexists _; isplitr
    · ipureintro; exact B.h19.read_unread _
    iexact H19

end Cert.KernelIdeal.Hand

end
-- ==== Proof.KI.Data.lean ====
import proofs.«163186_g6957847020190_cont_9to1_m_143_23_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain []) :=
  Pipeline.hmain_around cfgs 0 defs₀ 𝒱₀ m main [hostOps0] [] (by simp only [List.Forall]; exact hostOps0_sub)
    (by simp only [List.Forall]; exact hostOps0_fresh) main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KI.State.lean ====
import proofs.«163186_g6957847020190_cont_9to1_m_143_23_alg».proof.Proof.KI.RunA
import proofs.«163186_g6957847020190_cont_9to1_m_143_23_alg».proof.Proof.KI.RunB
import proofs.«163186_g6957847020190_cont_9to1_m_143_23_alg».proof.Proof.KI.RunC
import proofs.«163186_g6957847020190_cont_9to1_m_143_23_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x2048 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x256 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S2048x256 .f32 := win0_15.stage (cfg0.slots t 15)
abbrev hs15 (t : Fin cfg0.N) : (ms15 t).IsWhole := hstage0_15 ((cfg0.slots t 15).cast nbuf0_15)

abbrev stO : Memref sig .tc .vmem S2048x256 .f32 := Memref.whole cc0_stg15_0

theorem N4 : cfg0.N = 4 := N_0

/-- The body's operands at grid point t. -/
abbrev opsAt (t : Fin cfg0.N) : Ops :=
  ⟨ms0 t, hs0 t, ms1 t, hs1 t, ms2 t, hs2 t, ms3 t, hs3 t, ms4 t, hs4 t, ms5 t, hs5 t, ms6 t, hs6 t, ms7 t, hs7 t, ms8 t, hs8 t, ms9 t, hs9 t, ms10 t, hs10 t, ms11 t, hs11 t, ms12 t, hs12 t, ms13 t, hs13 t, ms14 t, hs14 t, ms15 t, hs15 t, scU, Memref.isWhole_whole _, scH, Memref.isWhole_whole _, scW, Memref.isWhole_whole _⟩

/-- The body's three control cases at grid point t, on that point's operands and input blocks. -/
abbrev firstAt (c : Dev nD) (t : Fin cfg0.N) (h1 : condFirst (grid0.coords t)) (h3 : ¬condLater (grid0.coords t))
    (h4 : ¬condLast (grid0.coords t)) :=
  runFirst c (grid0.coords t) (opsAt t) h1 h3 h4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
abbrev laterAt (c : Dev nD) (t : Fin cfg0.N) (h1 : ¬condFirst (grid0.coords t)) (h3 : condLater (grid0.coords t))
    (h4 : ¬condLast (grid0.coords t)) :=
  runLater c (grid0.coords t) (opsAt t) h1 h3 h4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
abbrev lastAt (c : Dev nD) (t : Fin cfg0.N) (h1 : ¬condFirst (grid0.coords t)) (h3 : condLater (grid0.coords t))
    (h4 : condLast (grid0.coords t)) :=
  runLast c (grid0.coords t) (opsAt t) h1 h3 h4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

def Wc (c : Dev nD) : Vec F S256x2048 .bf16 :=
  scW.view.read (Elt F) (scW.view.writes (Elt F) scW.view.junk (firstAt m c t0_0 ((hcondFirst t0_0).mpr (rfl : t0_0.val = 0)) (fun h => (hcondLater t0_0).mp h (rfl : t0_0.val = 0)) (fun h => absurd ((Eq.symm (rfl : t0_0.val = 0)).trans ((hcondLast t0_0).mp h)) (by decide : ¬((0 : ℕ) = 3)))).2.2.1)

def accAt (c : Dev nD) : (n : ℕ) → n < cfg0.N → Vec F S2048x256 .f32 × List (View.Piece (Elt F) S2048x256 .bf16)
  | 0, hn => ((scH.view.read (Elt F) (scH.view.writes (Elt F) scH.view.junk (firstAt m c (⟨0, hn⟩ : Fin cfg0.N) ((hcondFirst (⟨0, hn⟩ : Fin cfg0.N)).mpr (rfl : (⟨0, hn⟩ : Fin cfg0.N).val = 0)) (fun h => (hcondLater (⟨0, hn⟩ : Fin cfg0.N)).mp h (rfl : (⟨0, hn⟩ : Fin cfg0.N).val = 0)) (fun h => absurd ((Eq.symm (rfl : (⟨0, hn⟩ : Fin cfg0.N).val = 0)).trans ((hcondLast (⟨0, hn⟩ : Fin cfg0.N)).mp h)) (by decide : ¬((0 : ℕ) = 3)))).2.1)), (firstAt m c (⟨0, hn⟩ : Fin cfg0.N) ((hcondFirst (⟨0, hn⟩ : Fin cfg0.N)).mpr (rfl : (⟨0, hn⟩ : Fin cfg0.N).val = 0)) (fun h => (hcondLater (⟨0, hn⟩ : Fin cfg0.N)).mp h (rfl : (⟨0, hn⟩ : Fin cfg0.N).val = 0)) (fun h => absurd ((Eq.symm (rfl : (⟨0, hn⟩ : Fin cfg0.N).val = 0)).trans ((hcondLast (⟨0, hn⟩ : Fin cfg0.N)).mp h)) (by decide : ¬((0 : ℕ) = 3)))).1)
  | n + 1, hn =>
    if h3 : n + 1 = 3 then
      ((scH.view.read (Elt F) (scH.view.writes (Elt F) scH.view.junk (lastAt m c (⟨n + 1, hn⟩ : Fin cfg0.N) (fun h => (Nat.succ_ne_zero n) ((hcondFirst (⟨n + 1, hn⟩ : Fin cfg0.N)).mp h)) ((hcondLater (⟨n + 1, hn⟩ : Fin cfg0.N)).mpr (Nat.succ_ne_zero n)) ((hcondLast (⟨n + 1, hn⟩ : Fin cfg0.N)).mpr h3) (scU.view.read (Elt F) (scU.view.writes (Elt F) scU.view.junk (accAt c n (Nat.lt_of_succ_lt hn)).2)) (accAt c n (Nat.lt_of_succ_lt hn)).1 (Wc m c)).2.2.1)),
        (lastAt m c (⟨n + 1, hn⟩ : Fin cfg0.N) (fun h => (Nat.succ_ne_zero n) ((hcondFirst (⟨n + 1, hn⟩ : Fin cfg0.N)).mp h)) ((hcondLater (⟨n + 1, hn⟩ : Fin cfg0.N)).mpr (Nat.succ_ne_zero n)) ((hcondLast (⟨n + 1, hn⟩ : Fin cfg0.N)).mpr h3) (scU.view.read (Elt F) (scU.view.writes (Elt F) scU.view.junk (accAt c n (Nat.lt_of_succ_lt hn)).2)) (accAt c n (Nat.lt_of_succ_lt hn)).1 (Wc m c)).2.1 ++ (accAt c n (Nat.lt_of_succ_lt hn)).2)
    else
      ((scH.view.read (Elt F) (scH.view.writes (Elt F) scH.view.junk (laterAt m c (⟨n + 1, hn⟩ : Fin cfg0.N) (fun h => (Nat.succ_ne_zero n) ((hcondFirst (⟨n + 1, hn⟩ : Fin cfg0.N)).mp h)) ((hcondLater (⟨n + 1, hn⟩ : Fin cfg0.N)).mpr (Nat.succ_ne_zero n)) (fun h => h3 ((hcondLast (⟨n + 1, hn⟩ : Fin cfg0.N)).mp h)) (accAt c n (Nat.lt_of_succ_lt hn)).1 (Wc m c)).2.1)),
        (laterAt m c (⟨n + 1, hn⟩ : Fin cfg0.N) (fun h => (Nat.succ_ne_zero n) ((hcondFirst (⟨n + 1, hn⟩ : Fin cfg0.N)).mp h)) ((hcondLater (⟨n + 1, hn⟩ : Fin cfg0.N)).mpr (Nat.succ_ne_zero n)) (fun h => h3 ((hcondLast (⟨n + 1, hn⟩ : Fin cfg0.N)).mp h)) (accAt c n (Nat.lt_of_succ_lt hn)).1 (Wc m c)).1 ++ (accAt c n (Nat.lt_of_succ_lt hn)).2)

theorem lt2 : 2 < cfg0.N := by rw [N4]; decide

def outC (c : Dev nD) : Vec F S2048x256 .f32 :=
  stO.view.read (Elt F) (stO.view.writes (Elt F) stO.view.junk (lastAt m c t0_3 (fun h => (by decide : t0_3.val ≠ 0) ((hcondFirst t0_3).mp h)) ((hcondLater t0_3).mpr (by decide : t0_3.val ≠ 0)) ((hcondLast t0_3).mpr (rfl : t0_3.val = 3)) (scU.view.read (Elt F) (scU.view.writes (Elt F) scU.view.junk (accAt m c 2 lt2).2)) (accAt m c 2 lt2).1 (Wc m c)).1)

end Cert.KernelIdeal.Hand

end
-- ==== Proof.KI.Before.lean ====
import proofs.«163186_g6957847020190_cont_9to1_m_143_23_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

theorem live : ∀ w : Fin cfg0.W, w.val < 15 → ∀ t : Fin cfg0.N, cfg0.idle w (grid0.coords t) = false := by decide +kernel

theorem idleOut : ∀ t : Fin cfg0.N, ¬condLast (grid0.coords t) → cfg0.idle 15 (grid0.coords t) = true := by decide +kernel

theorem noFlushOut : ∀ t : Fin cfg0.N, ¬condLast (grid0.coords t) → (cfg0.win 15).flush t = false := by decide +kernel

theorem liveOut : ∀ t : Fin cfg0.N, condLast (grid0.coords t) → cfg0.idle 15 (grid0.coords t) = false := by decide +kernel

end Cert.KernelIdeal.Hand

end
-- ==== Proof.KI.Shares.lean ====
import proofs.«163186_g6957847020190_cont_9to1_m_143_23_alg».proof.Proof.Gen.KernelIdeal.Launch
import Idealize.ShloMosaic.Lib.Pipeline.Launch

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

def qOf : Fin 16 → PosShare TreeShare
  | 0 => fullShare.left.left
  | 1 => fullShare.left.right
  | 2 => fullShare.right.left
  | 3 => fullShare.right.right
  | 4 => fullShare.left
  | 5 => fullShare.right
  | _ => fullShare

theorem pointsTo_quarters {ℓ : Loc nD τ sig} (f : Buf (Elt F) ℓ) :
    (ℓ ↦{fullShare} f : sProp 𝕄) ⊣⊢ iprop((ℓ ↦{fullShare.left.left} f) ∗ (ℓ ↦{fullShare.left.right} f)
      ∗ (ℓ ↦{fullShare.right.left} f) ∗ (ℓ ↦{fullShare.right.right} f)) :=
  (pointsTo_share (PosShare.mem_left_op_right fullShare)).trans
    ((sep_congr (pointsTo_share (PosShare.mem_left_op_right fullShare.left))
      (pointsTo_share (PosShare.mem_left_op_right fullShare.right))).trans sep_assoc)

theorem pointsTo_halves {ℓ : Loc nD τ sig} (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

theorem arrBufs_eq (c : Dev nD) (V : (b : Ref sig .tc) → Buf (Elt F) ((c.tc : Thread nD τ).loc b)) :
    (Pipeline.arrBufs spec0 c V : sProp 𝕄)
      = bigSepL [main_arg0, main_arg1, main_arg2, main_arg3, main_v0, main_v1, main_v2, main_arg7, main_v3, main_v4, main_v5, main_v6]
          fun b => ((c.tc : Thread nD τ).loc b) ↦{fullShare} V b := by
  unfold Pipeline.arrBufs
  exact bigSep_eq_bigSepL_of_eq _ (by decide) (by decide) _

theorem share_eq (c : Dev nD) (dat : Dat τ (Elt F) Unit ℕ (UR sig nD τ) ℕ cfg0 c) (hq : dat.q = qOf) :
    ∀ w : Fin 16, dat.share w = qOf w := by
  intro w
  unfold Dat.share
  rw [hq]
  fin_cases w <;> rfl

theorem arrays_eq (c : Dev nD) (dat : Dat τ (Elt F) Unit ℕ (UR sig nD τ) ℕ cfg0 c) (hq : dat.q = qOf)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    dat.arrays Fw = bigSep Finset.univ fun w : Fin 16 =>
      (((c.tc : Thread nD τ).loc (Pipeline.arrRef spec0 w)) ↦{qOf w} V (Pipeline.arrRef spec0 w) : sProp 𝕄) := by
  unfold Dat.arrays
  exact bigSep_congr fun w _ => by rw [(arr_whole0 w).set_eq_univ, share_eq c dat hq w, hF w]

theorem arrays_iff (c : Dev nD) (dat : Dat τ (Elt F) Unit ℕ (UR sig nD τ) ℕ cfg0 c) (hq : dat.q = qOf)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (Pipeline.arrBufs spec0 c V : sProp 𝕄) ⊣⊢ dat.arrays Fw := by
  rw [arrays_eq c dat hq V Fw hF, bigSep_W0, arrBufs_eq]
  exact (sep_congr (pointsTo_quarters _) (sep_congr_left (pointsTo_halves _))).trans
    (sep_assoc.trans (sep_congr_right (sep_assoc.trans (sep_congr_right (sep_assoc.trans
      (sep_congr_right (sep_congr_right sep_assoc)))))))

end Cert.KernelIdeal.Hand
-- ==== Proof.KI.Dats.lean ====
import proofs.«163186_g6957847020190_cont_9to1_m_143_23_alg».proof.Proof.KI.State
import proofs.«163186_g6957847020190_cont_9to1_m_143_23_alg».proof.Proof.KI.Before
import proofs.«163186_g6957847020190_cont_9to1_m_143_23_alg».proof.Proof.KI.Shares

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem accAt_first (c : Dev nD) (t : Fin cfg0.N) (h0 : t.val = 0) :
    accAt m c t.val t.isLt = ((scH.view.read (Elt F) (scH.view.writes (Elt F) scH.view.junk (firstAt m c t ((hcondFirst t).mpr h0) (fun h => (hcondLater t).mp h h0) (fun h => absurd ((Eq.symm h0).trans ((hcondLast t).mp h)) (by decide : ¬((0 : ℕ) = 3)))).2.1)), (firstAt m c t ((hcondFirst t).mpr h0) (fun h => (hcondLater t).mp h h0) (fun h => absurd ((Eq.symm h0).trans ((hcondLast t).mp h)) (by decide : ¬((0 : ℕ) = 3)))).1) := by
  obtain ⟨n, hn⟩ := t
  cases n with
  | zero => exact rfl
  | succ n => exact absurd h0 (Nat.succ_ne_zero n)

theorem accAt_later (c : Dev nD) (t : Fin cfg0.N) (hz : t.val ≠ 0) (h3 : t.val ≠ 3) :
    accAt m c t.val t.isLt = ((scH.view.read (Elt F) (scH.view.writes (Elt F) scH.view.junk (laterAt m c t (fun h => hz ((hcondFirst t).mp h)) ((hcondLater t).mpr hz) (fun h => h3 ((hcondLast t).mp h)) (accAt m c (t.val - 1) (Nat.lt_of_le_of_lt (Nat.sub_le _ _) t.isLt)).1 (Wc m c)).2.1)), (laterAt m c t (fun h => hz ((hcondFirst t).mp h)) ((hcondLater t).mpr hz) (fun h => h3 ((hcondLast t).mp h)) (accAt m c (t.val - 1) (Nat.lt_of_le_of_lt (Nat.sub_le _ _) t.isLt)).1 (Wc m c)).1 ++ (accAt m c (t.val - 1) (Nat.lt_of_le_of_lt (Nat.sub_le _ _) t.isLt)).2) := by
  obtain ⟨n, hn⟩ := t
  cases n with
  | zero => exact absurd rfl hz
  | succ n => exact (dif_neg h3).trans rfl

theorem accAt_last (c : Dev nD) (t : Fin cfg0.N) (h3 : t.val = 3) :
    accAt m c t.val t.isLt = ((scH.view.read (Elt F) (scH.view.writes (Elt F) scH.view.junk (lastAt m c t (fun h => (ne_of_eq_of_ne h3 (by decide)) ((hcondFirst t).mp h)) ((hcondLater t).mpr (ne_of_eq_of_ne h3 (by decide))) ((hcondLast t).mpr h3) (scU.view.read (Elt F) (scU.view.writes (Elt F) scU.view.junk (accAt m c (t.val - 1) (Nat.lt_of_le_of_lt (Nat.sub_le _ _) t.isLt)).2)) (accAt m c (t.val - 1) (Nat.lt_of_le_of_lt (Nat.sub_le _ _) t.isLt)).1 (Wc m c)).2.2.1)), (lastAt m c t (fun h => (ne_of_eq_of_ne h3 (by decide)) ((hcondFirst t).mp h)) ((hcondLater t).mpr (ne_of_eq_of_ne h3 (by decide))) ((hcondLast t).mpr h3) (scU.view.read (Elt F) (scU.view.writes (Elt F) scU.view.junk (accAt m c (t.val - 1) (Nat.lt_of_le_of_lt (Nat.sub_le _ _) t.isLt)).2)) (accAt m c (t.val - 1) (Nat.lt_of_le_of_lt (Nat.sub_le _ _) t.isLt)).1 (Wc m c)).2.1 ++ (accAt m c (t.val - 1) (Nat.lt_of_le_of_lt (Nat.sub_le _ _) t.isLt)).2) := by
  obtain ⟨n, hn⟩ := t
  cases n with
  | zero => exact absurd h3 (show ¬((0 : ℕ) = 3) from by decide)
  | succ n => exact (dif_pos h3).trans rfl

def PhiS (c : Dev nD) : (n : ℕ) → n ≤ cfg0.N → sProp 𝕄
  | 0, _ => Pipeline.scopedRest spec0 c
  | n + 1, hn => iprop((∃ f, (scU.view.loc (c : Thread nD τ) ↦[scU.view.set]{fullShare} scU.view.writes (Elt F) f (accAt m c n hn).2))
      ∗ owns (c : Thread nD τ) scH fullShare (accAt m c n hn).1 ∗ owns (c : Thread nD τ) scW fullShare (Wc m c))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop((∃ f, (scU.view.loc (c : Thread nD τ) ↦[scU.view.set]{fullShare} scU.view.writes (Elt F) f (accAt m c n hn).2))
      ∗ owns (c : Thread nD τ) scH fullShare (accAt m c n hn).1 ∗ owns (c : Thread nD τ) scW fullShare (Wc m c)) := rfl

theorem PhiS_pos (c : Dev nD) (n : ℕ) (h : n ≤ cfg0.N) (hz : n ≠ 0) :
    PhiS m c n h = iprop((∃ f, (scU.view.loc (c : Thread nD τ) ↦[scU.view.set]{fullShare} scU.view.writes (Elt F) f (accAt m c (n - 1) (by omega)).2))
      ∗ owns (c : Thread nD τ) scH fullShare (accAt m c (n - 1) (by omega)).1 ∗ owns (c : Thread nD τ) scW fullShare (Wc m c)) := by
  cases n with
  | zero => exact absurd rfl hz
  | succ n => rfl

theorem Phi0_eq (c : Dev nD) :
    (Pipeline.scopedRest spec0 c : sProp 𝕄)
      = iprop((∃ d, owns (c : Thread nD τ) scU fullShare d) ∗ (∃ d, owns (c : Thread nD τ) scH fullShare d) ∗ (∃ d, owns (c : Thread nD τ) scW fullShare d)) := by
  rw [scopedRest0_eq]; simp only [scU, scH, scW, owns_whole]; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outC m c
    | ⟨n + 16, h⟩ => absurd h (Nat.not_lt.2 (Nat.le_add_left _ _))
  Φ t := PhiS m c t.val (Nat.le_of_lt_succ t.isLt)
  q := qOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = outC m c := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d

theorem owns_open {sp : Space} {sh : Shape} {e : EltTy} (c : Dev nD) (M : Memref sig .tc sp sh e) (q : PosShare TreeShare) (X : sh.Idx → Elt F e) :
    (owns (c : Thread nD τ) M q X : sProp 𝕄) ⊢ iprop(∃ f, ⌜M.view.read (Elt F) f = X⌝ ∗ (M.view.loc (c : Thread nD τ) ↦[M.view.set]{q} f)) := by
  unfold owns; exact .rfl

theorem owns_of {sp : Space} {sh : Shape} {e : EltTy} (c : Dev nD) (M : Memref sig .tc sp sh e) (q : PosShare TreeShare) (X : sh.Idx → Elt F e)
    (f : M.view.ty.Contents (Elt F)) (hf : M.view.read (Elt F) f = X) :
    (M.view.loc (c : Thread nD τ) ↦[M.view.set]{q} f : sProp 𝕄) ⊢ owns (c : Thread nD τ) M q X := by
  unfold owns; iintro H; iexists f; isplitr
  · ipureintro; exact hf
  · iexact H

end Cert.KernelIdeal.Hand

end
-- ==== Proof.KI.Pieces.lean ====
import proofs.«163186_g6957847020190_cont_9to1_m_143_23_alg».proof.Proof.KI.State
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by
  funext a; fin_cases a <;> rfl

theorem readCov_whole {sig : RefSig} {κ : Kind} {sp : Space} {S : Shape} {e : EltTy} (v : View sig κ sp S e)
    (L : List (View.Piece (Elt F) S e)) {off : Fin S.rank → ℕ} (hz : off = fun _ => 0) (inb : ∀ a, off a + S.size a ≤ S.size a) :
    v.readCov L (Rect.unit off S.size inb).toLoadRect = View.canon L := by
  rw [View.readCov_eq_canon']
  exact View.ld_unit_zero hz inb (View.canon L)

variable (c : Dev nD) (i : grid0.Coords) (B : Ops)

theorem hFirst_pieces (h1 : condFirst i) (h3 : ¬condLater i) (h4 : ¬condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) :
    (runFirst c i B h1 h3 h4 x1 x2 x3 x4 x5 x6 x7 x8 x9 x10 x11 x12 x13 x14 x15).2.1
      = [⟨Rect.unit ![1024, 0] ![1024, 256] inb_S2048x256_S1024x256_1024_0, k0_pay8 (k0_pay14 x1 (k0_pay13 x8)) (k0_pay16 x2 (k0_pay13 x8)) (k0_pay18 x3 (k0_pay13 x8)) x4 (k0_pay13 x8) x6⟩,
         ⟨Rect.unit ![0, 0] ![1024, 256] inb_S2048x256_S1024x256_0_0, k0_pay7 (k0_pay14 x1 (k0_pay13 x8)) (k0_pay16 x2 (k0_pay13 x8)) (k0_pay18 x3 (k0_pay13 x8)) x4 (k0_pay13 x8) x5⟩] := by
  unfold runFirst
  dsimp only
  sl_unfold_words
  simp only [View.readAt_eq_ld, Memref.IsWhole.read_unread, View.ld_unit_zero (S := S128x2048) hz2, View.ld_unit_zero (S := S1024x512) hz2,
    View.ld_unit_zero (S := S256x2048) hz2, View.ld_unit_zero (S := S2048x256) hz2, View.ld_unit_zero (S := S256x256) hz2,
    View.ld_unit_zero (S := S1x256) hz2, View.ld_unit_zero (S := S1x1) hz2, View.readCov_unit_zero (S := S256x2048) _ hz2]

theorem hLater_pieces (h1 : ¬condFirst i) (h3 : condLater i) (h4 : ¬condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (x18 : Vec F S2048x256 .f32) (x19 : Vec F S256x2048 .bf16) :
    (runLater c i B h1 h3 h4 x1 x2 x3 x4 x5 x6 x7 x8 x9 x10 x11 x12 x13 x14 x15 x18 x19).2.1
      = [⟨Rect.unit ![1024, 0] ![1024, 256] inb_S2048x256_S1024x256_1024_0,
          k0_pay10 (k0_pay14 x1 x19) (k0_pay16 x2 x19) (k0_pay18 x3 x19) x4 x19 x6 (View.ld x18 (Rect.unit ![1024, 0] ![1024, 256] inb_S2048x256_S1024x256_1024_0))⟩,
         ⟨Rect.unit ![0, 0] ![1024, 256] inb_S2048x256_S1024x256_0_0,
          k0_pay9 (k0_pay14 x1 x19) (k0_pay16 x2 x19) (k0_pay18 x3 x19) x4 x19 x5 (View.ld x18 (Rect.unit ![0, 0] ![1024, 256] inb_S2048x256_S1024x256_0_0))⟩] := by
  unfold runLater
  dsimp only
  sl_unfold_words
  simp only [View.readAt_eq_ld, Memref.IsWhole.read_unread, View.ld_unit_zero (S := S128x2048) hz2, View.ld_unit_zero (S := S1024x512) hz2,
    View.ld_unit_zero (S := S256x2048) hz2, View.ld_unit_zero (S := S2048x256) hz2, View.ld_unit_zero (S := S256x256) hz2,
    View.ld_unit_zero (S := S1x256) hz2, View.ld_unit_zero (S := S1x1) hz2, View.readCov_unit_zero (S := S256x2048) _ hz2]

theorem hLast_pieces (h1 : ¬condFirst i) (h3 : condLater i) (h4 : condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (x17 : Vec F S2048x256 .bf16) (x18 : Vec F S2048x256 .f32) (x19 : Vec F S256x2048 .bf16) :
    (runLast c i B h1 h3 h4 x1 x2 x3 x4 x5 x6 x7 x8 x9 x10 x11 x12 x13 x14 x15 x17 x18 x19).2.2.1
      = [⟨Rect.unit ![1024, 0] ![1024, 256] inb_S2048x256_S1024x256_1024_0,
          k0_pay10 (k0_pay14 x1 x19) (k0_pay16 x2 x19) (k0_pay18 x3 x19) x4 x19 x6 (View.ld x18 (Rect.unit ![1024, 0] ![1024, 256] inb_S2048x256_S1024x256_1024_0))⟩,
         ⟨Rect.unit ![0, 0] ![1024, 256] inb_S2048x256_S1024x256_0_0,
          k0_pay9 (k0_pay14 x1 x19) (k0_pay16 x2 x19) (k0_pay18 x3 x19) x4 x19 x5 (View.ld x18 (Rect.unit ![0, 0] ![1024, 256] inb_S2048x256_S1024x256_0_0))⟩] := by
  unfold runLast
  dsimp only
  sl_unfold_words
  simp only [View.readAt_eq_ld, Memref.IsWhole.read_unread, View.ld_unit_zero (S := S128x2048) hz2, View.ld_unit_zero (S := S1024x512) hz2,
    View.ld_unit_zero (S := S256x2048) hz2, View.ld_unit_zero (S := S2048x256) hz2, View.ld_unit_zero (S := S256x256) hz2,
    View.ld_unit_zero (S := S1x256) hz2, View.ld_unit_zero (S := S1x1) hz2, View.readCov_unit_zero (S := S256x2048) _ hz2]

theorem oLast_piece (h1 : ¬condFirst i) (h3 : condLater i) (h4 : condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (x17 : Vec F S2048x256 .bf16) (x18 : Vec F S2048x256 .f32) (x19 : Vec F S256x2048 .bf16) :
    (runLast c i B h1 h3 h4 x1 x2 x3 x4 x5 x6 x7 x8 x9 x10 x11 x12 x13 x14 x15 x17 x18 x19).1
      = [⟨Rect.unit ![0, 0] ![2048, 256] inb_S2048x256_S2048x256_0_0,
          k0_pay11 (k0_pay12 (View.canon (runLast c i B h1 h3 h4 x1 x2 x3 x4 x5 x6 x7 x8 x9 x10 x11 x12 x13 x14 x15 x17 x18 x19).2.2.1) x7
              (B.a17.view.read (Elt F) (B.a17.view.writes (Elt F) (B.h17.unread x17) (runLast c i B h1 h3 h4 x1 x2 x3 x4 x5 x6 x7 x8 x9 x10 x11 x12 x13 x14 x15 x17 x18 x19).2.1)) x9 x10 x11)
            x12 x13 x14 x15⟩] := by
  unfold runLast
  dsimp only
  unfold runLast.sl.r_3 runLast.sl.v63 runLast.sl.v66
  simp only [View.readAt_eq_ld, Memref.IsWhole.read_unread, View.ld_unit_zero (S := S128x2048) hz2, View.ld_unit_zero (S := S1024x512) hz2,
    View.ld_unit_zero (S := S256x2048) hz2, View.ld_unit_zero (S := S2048x256) hz2, View.ld_unit_zero (S := S256x256) hz2,
    View.ld_unit_zero (S := S1x256) hz2, View.ld_unit_zero (S := S1x1) hz2, View.readCov_unit_zero (S := S256x2048) _ hz2, readCov_whole (S := S2048x256) _ _ hz2]

end Cert.KernelIdeal.Hand

end
-- ==== Proof.KI.StateLemmas.lean ====
import proofs.«163186_g6957847020190_cont_9to1_m_143_23_alg».proof.Proof.KI.Pieces
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (B : Ops)

theorem coverH_first (h1 : condFirst i) (h3 : ¬condLater i) (h4 : ¬condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (y : S2048x256.Idx) :
    ∃ pc ∈ (runFirst c i B h1 h3 h4 x1 x2 x3 x4 x5 x6 x7 x8 x9 x10 x11 x12 x13 x14 x15).2.1, y ∈ pc.1.set :=
  View.cover_of_tiledL (runFirst c i B h1 h3 h4 x1 x2 x3 x4 x5 x6 x7 x8 x9 x10 x11 x12 x13 x14 x15).2.1 S1024x256.size (by sl_kernel_rfl) y

theorem coverW_first (h1 : condFirst i) (h3 : ¬condLater i) (h4 : ¬condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (y : S256x2048.Idx) :
    ∃ pc ∈ (runFirst c i B h1 h3 h4 x1 x2 x3 x4 x5 x6 x7 x8 x9 x10 x11 x12 x13 x14 x15).2.2.1, y ∈ pc.1.set :=
  View.cover_of_tiledL (runFirst c i B h1 h3 h4 x1 x2 x3 x4 x5 x6 x7 x8 x9 x10 x11 x12 x13 x14 x15).2.2.1 S256x2048.size (by sl_kernel_rfl) y

theorem coverH_later (h1 : ¬condFirst i) (h3 : condLater i) (h4 : ¬condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (x18 : Vec F S2048x256 .f32) (x19 : Vec F S256x2048 .bf16) (y : S2048x256.Idx) :
    ∃ pc ∈ (runLater c i B h1 h3 h4 x1 x2 x3 x4 x5 x6 x7 x8 x9 x10 x11 x12 x13 x14 x15 x18 x19).2.1, y ∈ pc.1.set :=
  View.cover_of_tiledL (runLater c i B h1 h3 h4 x1 x2 x3 x4 x5 x6 x7 x8 x9 x10 x11 x12 x13 x14 x15 x18 x19).2.1 S1024x256.size (by sl_kernel_rfl) y

theorem coverH_last (h1 : ¬condFirst i) (h3 : condLater i) (h4 : condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (x17 : Vec F S2048x256 .bf16) (x18 : Vec F S2048x256 .f32) (x19 : Vec F S256x2048 .bf16) (y : S2048x256.Idx) :
    ∃ pc ∈ (runLast c i B h1 h3 h4 x1 x2 x3 x4 x5 x6 x7 x8 x9 x10 x11 x12 x13 x14 x15 x17 x18 x19).2.2.1, y ∈ pc.1.set :=
  View.cover_of_tiledL (runLast c i B h1 h3 h4 x1 x2 x3 x4 x5 x6 x7 x8 x9 x10 x11 x12 x13 x14 x15 x17 x18 x19).2.2.1 S1024x256.size (by sl_kernel_rfl) y

theorem coverO_last (h1 : ¬condFirst i) (h3 : condLater i) (h4 : condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (x17 : Vec F S2048x256 .bf16) (x18 : Vec F S2048x256 .f32) (x19 : Vec F S256x2048 .bf16) (y : S2048x256.Idx) :
    ∃ pc ∈ (runLast c i B h1 h3 h4 x1 x2 x3 x4 x5 x6 x7 x8 x9 x10 x11 x12 x13 x14 x15 x17 x18 x19).1, y ∈ pc.1.set :=
  View.cover_of_tiledL (runLast c i B h1 h3 h4 x1 x2 x3 x4 x5 x6 x7 x8 x9 x10 x11 x12 x13 x14 x15 x17 x18 x19).1 S2048x256.size (by sl_kernel_rfl) y

theorem uLast_pieces (h1 : ¬condFirst i) (h3 : condLater i) (h4 : condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (x17 : Vec F S2048x256 .bf16) (x18 : Vec F S2048x256 .f32) (x19 : Vec F S256x2048 .bf16) :
    (runLast c i B h1 h3 h4 x1 x2 x3 x4 x5 x6 x7 x8 x9 x10 x11 x12 x13 x14 x15 x17 x18 x19).2.1
      = [⟨Rect.unit (k0_off1 i 384#32) S128x256.size (k0_off1_inb i 3), k0_pay3 x4 x19⟩,
         ⟨Rect.unit (k0_off1 i 256#32) S128x256.size (k0_off1_inb i 2), k0_pay1 (k0_pay18 x3 x19)⟩,
         ⟨Rect.unit (k0_off1 i 128#32) S128x256.size (k0_off1_inb i 1), k0_pay17 x2 x19⟩,
         ⟨Rect.unit (k0_off1 i 0#32) S128x256.size (k0_off1_inb i 0), k0_pay15 x1 x19⟩] := by
  unfold runLast
  dsimp only
  sl_unfold_words
  simp only [View.readAt_eq_ld, Memref.IsWhole.read_unread, View.ld_unit_zero (S := S128x2048) hz2, View.ld_unit_zero (S := S1024x512) hz2,
    View.ld_unit_zero (S := S256x2048) hz2, View.ld_unit_zero (S := S2048x256) hz2, View.ld_unit_zero (S := S256x256) hz2,
    View.ld_unit_zero (S := S1x256) hz2, View.ld_unit_zero (S := S1x1) hz2, View.readCov_unit_zero (S := S256x2048) _ hz2]

theorem stripsLast_indep (h1 : ¬condFirst i) (h3 : condLater i) (h4 : condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (x17 : Vec F S2048x256 .bf16) (x18 : Vec F S2048x256 .f32) (x19 : Vec F S256x2048 .bf16) (x17' : Vec F S2048x256 .bf16) :
    (runLast c i B h1 h3 h4 x1 x2 x3 x4 x5 x6 x7 x8 x9 x10 x11 x12 x13 x14 x15 x17 x18 x19).2.1 = (runLast c i B h1 h3 h4 x1 x2 x3 x4 x5 x6 x7 x8 x9 x10 x11 x12 x13 x14 x15 x17' x18 x19).2.1 := by
  rw [uLast_pieces, uLast_pieces]

theorem accLast_indep (h1 : ¬condFirst i) (h3 : condLater i) (h4 : condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32) (x17 : Vec F S2048x256 .bf16) (x18 : Vec F S2048x256 .f32) (x19 : Vec F S256x2048 .bf16) (x17' : Vec F S2048x256 .bf16) :
    (runLast c i B h1 h3 h4 x1 x2 x3 x4 x5 x6 x7 x8 x9 x10 x11 x12 x13 x14 x15 x17 x18 x19).2.2.1 = (runLast c i B h1 h3 h4 x1 x2 x3 x4 x5 x6 x7 x8 x9 x10 x11 x12 x13 x14 x15 x17' x18 x19).2.2.1 := by
  rw [hLast_pieces, hLast_pieces]

end Cert.KernelIdeal.Hand

end
-- ==== Proof.KI.LastFacts.lean ====
import proofs.«163186_g6957847020190_cont_9to1_m_143_23_alg».proof.Proof.KI.StateLemmas

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

attribute [local irreducible] runFirst runLater runLast

variable (c : Dev nD) (i : grid0.Coords) (B : Ops)

variable (h1 : ¬condFirst i) (h3 : condLater i) (h4 : condLast i) (x1 x2 x3 x4 : Vec F S128x2048 .f32) (x5 x6 : Vec F S1024x512 .f32) (x7 : Vec F S1x1 .f32) (x8 : Vec F S256x2048 .f32) (x9 x10 x11 : Vec F S1x256 .f32) (x12 : Vec F S256x256 .f32) (x13 x14 x15 : Vec F S1x256 .f32)
  (x18 : Vec F S2048x256 .f32) (x19 : Vec F S256x2048 .bf16)
  (fu : B.a17.view.ty.Contents (Elt F)) (prevL : List (View.Piece (Elt F) S2048x256 .bf16))

theorem uLast_contents :
    B.a17.view.writes (Elt F) (B.h17.unread (B.a17.view.read (Elt F) (B.a17.view.writes (Elt F) fu prevL))) (runLast c i B h1 h3 h4 x1 x2 x3 x4 x5 x6 x7 x8 x9 x10 x11 x12 x13 x14 x15 (B.a17.view.read (Elt F) (B.a17.view.writes (Elt F) fu prevL)) x18 x19).2.1
      = B.a17.view.writes (Elt F) fu ((runLast c i B h1 h3 h4 x1 x2 x3 x4 x5 x6 x7 x8 x9 x10 x11 x12 x13 x14 x15 (B.a17.view.read (Elt F) (B.a17.view.writes (Elt F) B.a17.view.junk prevL)) x18 x19).2.1 ++ prevL) :=
  (congrArg (fun g => B.a17.view.writes (Elt F) g (runLast c i B h1 h3 h4 x1 x2 x3 x4 x5 x6 x7 x8 x9 x10 x11 x12 x13 x14 x15 (B.a17.view.read (Elt F) (B.a17.view.writes (Elt F) fu prevL)) x18 x19).2.1) (B.h17.unread_read (B.a17.view.writes (Elt F) fu prevL))).trans
    ((View.writes_append B.a17.view fu (runLast c i B h1 h3 h4 x1 x2 x3 x4 x5 x6 x7 x8 x9 x10 x11 x12 x13 x14 x15 (B.a17.view.read (Elt F) (B.a17.view.writes (Elt F) fu prevL)) x18 x19).2.1 prevL).symm.trans
      (congrArg (fun L => B.a17.view.writes (Elt F) fu (L ++ prevL))
        (stripsLast_indep c i B h1 h3 h4 x1 x2 x3 x4 x5 x6 x7 x8 x9 x10 x11 x12 x13 x14 x15 (B.a17.view.read (Elt F) (B.a17.view.writes (Elt F) fu prevL)) x18 x19 (B.a17.view.read (Elt F) (B.a17.view.writes (Elt F) B.a17.view.junk prevL)))))

theorem uLast_contents_junk :
    B.a17.view.writes (Elt F) (B.h17.unread (B.a17.view.read (Elt F) (B.a17.view.writes (Elt F) B.a17.view.junk prevL))) (runLast c i B h1 h3 h4 x1 x2 x3 x4 x5 x6 x7 x8 x9 x10 x11 x12 x13 x14 x15 (B.a17.view.read (Elt F) (B.a17.view.writes (Elt F) B.a17.view.junk prevL)) x18 x19).2.1
      = B.a17.view.writes (Elt F) B.a17.view.junk ((runLast c i B h1 h3 h4 x1 x2 x3 x4 x5 x6 x7 x8 x9 x10 x11 x12 x13 x14 x15 (B.a17.view.read (Elt F) (B.a17.view.writes (Elt F) B.a17.view.junk prevL)) x18 x19).2.1 ++ prevL) :=
  (congrArg (fun g => B.a17.view.writes (Elt F) g (runLast c i B h1 h3 h4 x1 x2 x3 x4 x5 x6 x7 x8 x9 x10 x11 x12 x13 x14 x15 (B.a17.view.read (Elt F) (B.a17.view.writes (Elt F) B.a17.view.junk prevL)) x18 x19).2.1) (B.h17.unread_read (B.a17.view.writes (Elt F) B.a17.view.junk prevL))).trans
    (View.writes_append B.a17.view B.a17.view.junk (runLast c i B h1 h3 h4 x1 x2 x3 x4 x5 x6 x7 x8 x9 x10 x11 x12 x13 x14 x15 (B.a17.view.read (Elt F) (B.a17.view.writes (Elt F) B.a17.view.junk prevL)) x18 x19).2.1 prevL).symm

theorem uLast_read (hcov : ∀ y, ∃ pc ∈ (runLast c i B h1 h3 h4 x1 x2 x3 x4 x5 x6 x7 x8 x9 x10 x11 x12 x13 x14 x15 (B.a17.view.read (Elt F) (B.a17.view.writes (Elt F) B.a17.view.junk prevL)) x18 x19).2.1 ++ prevL, y ∈ pc.1.set) :
    B.a17.view.read (Elt F) (B.a17.view.writes (Elt F) (B.h17.unread (B.a17.view.read (Elt F) (B.a17.view.writes (Elt F) fu prevL))) (runLast c i B h1 h3 h4 x1 x2 x3 x4 x5 x6 x7 x8 x9 x10 x11 x12 x13 x14 x15 (B.a17.view.read (Elt F) (B.a17.view.writes (Elt F) fu prevL)) x18 x19).2.1)
      = B.a17.view.read (Elt F) (B.a17.view.writes (Elt F) (B.h17.unread (B.a17.view.read (Elt F) (B.a17.view.writes (Elt F) B.a17.view.junk prevL))) (runLast c i B h1 h3 h4 x1 x2 x3 x4 x5 x6 x7 x8 x9 x10 x11 x12 x13 x14 x15 (B.a17.view.read (Elt F) (B.a17.view.writes (Elt F) B.a17.view.junk prevL)) x18 x19).2.1) :=
  (congrArg (B.a17.view.read (Elt F)) (uLast_contents c i B h1 h3 h4 x1 x2 x3 x4 x5 x6 x7 x8 x9 x10 x11 x12 x13 x14 x15 x18 x19 fu prevL)).trans
    ((View.read_writes_of_cover B.a17.view fu B.a17.view B.a17.view.junk _ hcov).trans
      (congrArg (B.a17.view.read (Elt F)) (uLast_contents_junk c i B h1 h3 h4 x1 x2 x3 x4 x5 x6 x7 x8 x9 x10 x11 x12 x13 x14 x15 x18 x19 prevL)).symm)

theorem oLast_indep (hcov : ∀ y, ∃ pc ∈ (runLast c i B h1 h3 h4 x1 x2 x3 x4 x5 x6 x7 x8 x9 x10 x11 x12 x13 x14 x15 (B.a17.view.read (Elt F) (B.a17.view.writes (Elt F) B.a17.view.junk prevL)) x18 x19).2.1 ++ prevL, y ∈ pc.1.set) :
    (runLast c i B h1 h3 h4 x1 x2 x3 x4 x5 x6 x7 x8 x9 x10 x11 x12 x13 x14 x15 (B.a17.view.read (Elt F) (B.a17.view.writes (Elt F) fu prevL)) x18 x19).1 = (runLast c i B h1 h3 h4 x1 x2 x3 x4 x5 x6 x7 x8 x9 x10 x11 x12 x13 x14 x15 (B.a17.view.read (Elt F) (B.a17.view.writes (Elt F) B.a17.view.junk prevL)) x18 x19).1 :=
  (oLast_piece c i B h1 h3 h4 x1 x2 x3 x4 x5 x6 x7 x8 x9 x10 x11 x12 x13 x14 x15 (B.a17.view.read (Elt F) (B.a17.view.writes (Elt F) fu prevL)) x18 x19).trans
    ((congrArg₂ (fun (L : List (View.Piece (Elt F) S2048x256 .f32)) (U : Vec F S2048x256 .bf16) =>
        ([⟨Rect.unit ![0, 0] ![2048, 256] inb_S2048x256_S2048x256_0_0,
          k0_pay11 (k0_pay12 (View.canon L) x7 U x9 x10 x11) x12 x13 x14 x15⟩] : List (View.Piece (Elt F) S2048x256 .f32)))
        (accLast_indep c i B h1 h3 h4 x1 x2 x3 x4 x5 x6 x7 x8 x9 x10 x11 x12 x13 x14 x15 (B.a17.view.read (Elt F) (B.a17.view.writes (Elt F) fu prevL)) x18 x19 (B.a17.view.read (Elt F) (B.a17.view.writes (Elt F) B.a17.view.junk prevL)))
        (uLast_read c i B h1 h3 h4 x1 x2 x3 x4 x5 x6 x7 x8 x9 x10 x11 x12 x13 x14 x15 x18 x19 fu prevL hcov)).trans
      (oLast_piece c i B h1 h3 h4 x1 x2 x3 x4 x5 x6 x7 x8 x9 x10 x11 x12 x13 x14 x15 (B.a17.view.read (Elt F) (B.a17.view.writes (Elt F) B.a17.view.junk prevL)) x18 x19).symm)

end Cert.KernelIdeal.Hand

end
-- ==== Proof.KI.Body.lean ====
import proofs.«163186_g6957847020190_cont_9to1_m_143_23_alg».proof.Proof.KI.Dats
import proofs.«163186_g6957847020190_cont_9to1_m_143_23_alg».proof.Proof.KI.StateLemmas
import proofs.«163186_g6957847020190_cont_9to1_m_143_23_alg».proof.Proof.KI.LastFacts

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] runFirst runLater runLast

theorem pointsTo_of_eq {ℓ : Loc nD τ sig} {I : Finset (Idx ℓ)} {q : PosShare TreeShare} {f g : Buf (Elt F) ℓ} (h : f = g) :
    (ℓ ↦[I]{q} f : sProp 𝕄) ⊢ ℓ ↦[I]{q} g := by
  subst h; exact .rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem outC_at3 (c : Dev nD) :
    outC m c = stO.view.read (Elt F) (stO.view.writes (Elt F) stO.view.junk (lastAt m c t0_3 (fun h => (ne_of_eq_of_ne (rfl : t0_3.val = 3) (by decide)) ((hcondFirst t0_3).mp h)) ((hcondLater t0_3).mpr (ne_of_eq_of_ne (rfl : t0_3.val = 3) (by decide))) ((hcondLast t0_3).mpr (rfl : t0_3.val = 3)) (scU.view.read (Elt F) (scU.view.writes (Elt F) scU.view.junk (accAt m c (t0_3.val - 1) (Nat.lt_of_le_of_lt (Nat.sub_le _ _) t0_3.isLt)).2)) (accAt m c (t0_3.val - 1) (Nat.lt_of_le_of_lt (Nat.sub_le _ _) t0_3.isLt)).1 (Wc m c)).1) := by
  sl_kernel_rfl

theorem coverU_all (c : Dev nD) (t : Fin cfg0.N) (h3 : t.val = 3) (y : S2048x256.Idx) :
    ∃ pc ∈ (accAt m c t.val t.isLt).2, y ∈ pc.1.set := by
  obtain ⟨n, hn⟩ := t
  obtain rfl : n = 3 := h3
  exact View.cover_of_tiledL (accAt m c 3 hn).2 S128x256.size (by sl_kernel_rfl) y

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt N4
  rw [show (dats m 0 c).leavesExact 0 t = owns (c : Thread nD τ) (ms0 t) fullShare ((dats m 0 c).after 0 t) from by
    unfold Dat.leavesExact; rw [live 0 (by decide) t], after0]
  rw [show (dats m 0 c).leavesExact 1 t = owns (c : Thread nD τ) (ms1 t) fullShare ((dats m 0 c).after 1 t) from by
    unfold Dat.leavesExact; rw [live 1 (by decide) t], after1]
  rw [show (dats m 0 c).leavesExact 2 t = owns (c : Thread nD τ) (ms2 t) fullShare ((dats m 0 c).after 2 t) from by
    unfold Dat.leavesExact; rw [live 2 (by decide) t], after2]
  rw [show (dats m 0 c).leavesExact 3 t = owns (c : Thread nD τ) (ms3 t) fullShare ((dats m 0 c).after 3 t) from by
    unfold Dat.leavesExact; rw [live 3 (by decide) t], after3]
  rw [show (dats m 0 c).leavesExact 4 t = owns (c : Thread nD τ) (ms4 t) fullShare ((dats m 0 c).after 4 t) from by
    unfold Dat.leavesExact; rw [live 4 (by decide) t], after4]
  rw [show (dats m 0 c).leavesExact 5 t = owns (c : Thread nD τ) (ms5 t) fullShare ((dats m 0 c).after 5 t) from by
    unfold Dat.leavesExact; rw [live 5 (by decide) t], after5]
  rw [show (dats m 0 c).leavesExact 6 t = owns (c : Thread nD τ) (ms6 t) fullShare ((dats m 0 c).after 6 t) from by
    unfold Dat.leavesExact; rw [live 6 (by decide) t], after6]
  rw [show (dats m 0 c).leavesExact 7 t = owns (c : Thread nD τ) (ms7 t) fullShare ((dats m 0 c).after 7 t) from by
    unfold Dat.leavesExact; rw [live 7 (by decide) t], after7]
  rw [show (dats m 0 c).leavesExact 8 t = owns (c : Thread nD τ) (ms8 t) fullShare ((dats m 0 c).after 8 t) from by
    unfold Dat.leavesExact; rw [live 8 (by decide) t], after8]
  rw [show (dats m 0 c).leavesExact 9 t = owns (c : Thread nD τ) (ms9 t) fullShare ((dats m 0 c).after 9 t) from by
    unfold Dat.leavesExact; rw [live 9 (by decide) t], after9]
  rw [show (dats m 0 c).leavesExact 10 t = owns (c : Thread nD τ) (ms10 t) fullShare ((dats m 0 c).after 10 t) from by
    unfold Dat.leavesExact; rw [live 10 (by decide) t], after10]
  rw [show (dats m 0 c).leavesExact 11 t = owns (c : Thread nD τ) (ms11 t) fullShare ((dats m 0 c).after 11 t) from by
    unfold Dat.leavesExact; rw [live 11 (by decide) t], after11]
  rw [show (dats m 0 c).leavesExact 12 t = owns (c : Thread nD τ) (ms12 t) fullShare ((dats m 0 c).after 12 t) from by
    unfold Dat.leavesExact; rw [live 12 (by decide) t], after12]
  rw [show (dats m 0 c).leavesExact 13 t = owns (c : Thread nD τ) (ms13 t) fullShare ((dats m 0 c).after 13 t) from by
    unfold Dat.leavesExact; rw [live 13 (by decide) t], after13]
  rw [show (dats m 0 c).leavesExact 14 t = owns (c : Thread nD τ) (ms14 t) fullShare ((dats m 0 c).after 14 t) from by
    unfold Dat.leavesExact; rw [live 14 (by decide) t], after14]
  by_cases h0 : t.val = 0
  ·
    have hnl : ¬condLast (grid0.coords t) := fun h => by have := (hcondLast t).mp h; omega
    rw [Dat.leavesExact_idle (dats m 0 c) 15 t (idleOut t hnl) (noFlushOut t hnl)]
    rw [accAt_first m c t h0]; (try dsimp only)
    rw [PhiS_castSucc m c t, PhiS_zero m c _ _ h0, Phi0_eq]
    iintro ⟨⟨⟨%du, HU⟩, ⟨%dh, HH⟩, ⟨%dw, HW⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    ihave HU := (owns_open c scU fullShare du) $$ HU
    icases HU with ⟨%fu, -, HU⟩
    ihave HH := (owns_open c scH fullShare dh) $$ HH
    icases HH with ⟨%fh, -, HH⟩
    ihave HW := (owns_open c scW fullShare dw) $$ HW
    icases HW with ⟨%fw, -, HW⟩
    ihave H15 := (owns_open c (ms15 t) fullShare _) $$ H15
    icases H15 with ⟨%fo, %hfo, H15⟩
    iapply ((firstAt m c t ((hcondFirst t).mpr h0) (fun h => (hcondLater t).mp h h0) (fun h => absurd ((Eq.symm h0).trans ((hcondLast t).mp h)) (by decide : ¬((0 : ℕ) = 3)))).2.2.2 fo fu fh fw Set.univ _)
    iframe
    iintro ⟨H0, H1, H2, H3, H4, H5, H6, H7, H8, H9, H10, H11, H12, H13, H14, H15, HU, HH, HW⟩
    isplitl [HU HH HW]
    · isplitl [HU]; · iexists fu; iexact HU
      isplitl [HH]
      · iapply (owns_of c scH fullShare _ _ (View.read_writes_of_cover _ _ _ _ _ (coverH_first c _ _ _ _ _ _ _ _ _ _ _ _ _ _ _ _ _ _ _ _)))
        iexact HH
      have hW : Wc m c = scW.view.read (Elt F) (scW.view.writes (Elt F) fw (firstAt m c t ((hcondFirst t).mpr h0) (fun h => (hcondLater t).mp h h0) (fun h => absurd ((Eq.symm h0).trans ((hcondLast t).mp h)) (by decide : ¬((0 : ℕ) = 3)))).2.2.1) := by
        obtain rfl : t = t0_0 := Fin.ext h0
        exact View.read_writes_of_cover _ _ _ _ _ (coverW_first c _ _ _ _ _ _ _ _ _ _ _ _ _ _ _ _ _ _ _ _)
      iapply (owns_of c scW fullShare _ _ hW.symm)
      iexact HW
    iframe
    iexists d15
    iapply (owns_of c (ms15 t) fullShare _ fo hfo)
    iexact H15
  · by_cases h3 : t.val = 3
    ·
      obtain rfl : t = t0_3 := Fin.ext h3
      have hz : t0_3.val ≠ 0 := h0
      have hl : condLast (grid0.coords t0_3) := (hcondLast t0_3).mpr h3
      rw [show (dats m 0 c).leavesExact 15 t0_3 = owns (c : Thread nD τ) (ms15 t0_3) fullShare ((dats m 0 c).after 15 t0_3) from by
        unfold Dat.leavesExact; rw [liveOut t0_3 hl], after15]
      rw [accAt_last m c t0_3 h3]; (try dsimp only)
      rw [PhiS_castSucc m c t0_3, PhiS_pos m c _ _ hz]
      iintro ⟨⟨⟨%fu, HU⟩, HH, HW⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      ihave H15 := (owns_open c (ms15 t0_3) fullShare _) $$ H15
      icases H15 with ⟨%fo, -, H15⟩
      ihave HU := (owns_intro (c : Thread nD τ) scU fullShare _) $$ HU
      iapply ((lastAt m c t0_3 (fun h => (ne_of_eq_of_ne h3 (by decide)) ((hcondFirst t0_3).mp h)) ((hcondLater t0_3).mpr (ne_of_eq_of_ne h3 (by decide))) ((hcondLast t0_3).mpr h3) (scU.view.read (Elt F) (scU.view.writes (Elt F) fu (accAt m c (t0_3.val - 1) (Nat.lt_of_le_of_lt (Nat.sub_le _ _) t0_3.isLt)).2)) (accAt m c (t0_3.val - 1) (Nat.lt_of_le_of_lt (Nat.sub_le _ _) t0_3.isLt)).1 (Wc m c)).2.2.2 fo Set.univ _)
      iframe
      iintro ⟨H0, H1, H2, H3, H4, H5, H6, H7, H8, H9, H10, H11, H12, H13, H14, H15, HU, HH, HW⟩

      have hcov : ∀ y, ∃ pc ∈ (lastAt m c t0_3 (fun h => (ne_of_eq_of_ne h3 (by decide)) ((hcondFirst t0_3).mp h)) ((hcondLater t0_3).mpr (ne_of_eq_of_ne h3 (by decide))) ((hcondLast t0_3).mpr h3) (scU.view.read (Elt F) (scU.view.writes (Elt F) scU.view.junk (accAt m c (t0_3.val - 1) (Nat.lt_of_le_of_lt (Nat.sub_le _ _) t0_3.isLt)).2)) (accAt m c (t0_3.val - 1) (Nat.lt_of_le_of_lt (Nat.sub_le _ _) t0_3.isLt)).1 (Wc m c)).2.1 ++ (accAt m c (t0_3.val - 1) (Nat.lt_of_le_of_lt (Nat.sub_le _ _) t0_3.isLt)).2, y ∈ pc.1.set := fun y =>
        (congrArg (fun p : Vec F S2048x256 .f32 × List (View.Piece (Elt F) S2048x256 .bf16) => ∃ pc ∈ p.2, y ∈ pc.1.set)
          (accAt_last m c t0_3 h3)).mp (coverU_all m c t0_3 h3 y)
      have eU := uLast_contents c (grid0.coords t0_3) (opsAt t0_3) (fun h => (ne_of_eq_of_ne h3 (by decide)) ((hcondFirst t0_3).mp h)) ((hcondLater t0_3).mpr (ne_of_eq_of_ne h3 (by decide))) ((hcondLast t0_3).mpr h3) (iblk m c 0 t0_3) (iblk m c 1 t0_3) (iblk m c 2 t0_3) (iblk m c 3 t0_3) (iblk m c 4 t0_3) (iblk m c 5 t0_3) (iblk m c 6 t0_3) (iblk m c 7 t0_3) (iblk m c 8 t0_3) (iblk m c 9 t0_3) (iblk m c 10 t0_3) (iblk m c 11 t0_3) (iblk m c 12 t0_3) (iblk m c 13 t0_3) (iblk m c 14 t0_3) (accAt m c (t0_3.val - 1) (Nat.lt_of_le_of_lt (Nat.sub_le _ _) t0_3.isLt)).1 (Wc m c) fu (accAt m c (t0_3.val - 1) (Nat.lt_of_le_of_lt (Nat.sub_le _ _) t0_3.isLt)).2
      have eH := accLast_indep c (grid0.coords t0_3) (opsAt t0_3) (fun h => (ne_of_eq_of_ne h3 (by decide)) ((hcondFirst t0_3).mp h)) ((hcondLater t0_3).mpr (ne_of_eq_of_ne h3 (by decide))) ((hcondLast t0_3).mpr h3) (iblk m c 0 t0_3) (iblk m c 1 t0_3) (iblk m c 2 t0_3) (iblk m c 3 t0_3) (iblk m c 4 t0_3) (iblk m c 5 t0_3) (iblk m c 6 t0_3) (iblk m c 7 t0_3) (iblk m c 8 t0_3) (iblk m c 9 t0_3) (iblk m c 10 t0_3) (iblk m c 11 t0_3) (iblk m c 12 t0_3) (iblk m c 13 t0_3) (iblk m c 14 t0_3) (scU.view.read (Elt F) (scU.view.writes (Elt F) fu (accAt m c (t0_3.val - 1) (Nat.lt_of_le_of_lt (Nat.sub_le _ _) t0_3.isLt)).2)) (accAt m c (t0_3.val - 1) (Nat.lt_of_le_of_lt (Nat.sub_le _ _) t0_3.isLt)).1 (Wc m c) (scU.view.read (Elt F) (scU.view.writes (Elt F) scU.view.junk (accAt m c (t0_3.val - 1) (Nat.lt_of_le_of_lt (Nat.sub_le _ _) t0_3.isLt)).2))
      have eO := oLast_indep c (grid0.coords t0_3) (opsAt t0_3) (fun h => (ne_of_eq_of_ne h3 (by decide)) ((hcondFirst t0_3).mp h)) ((hcondLater t0_3).mpr (ne_of_eq_of_ne h3 (by decide))) ((hcondLast t0_3).mpr h3) (iblk m c 0 t0_3) (iblk m c 1 t0_3) (iblk m c 2 t0_3) (iblk m c 3 t0_3) (iblk m c 4 t0_3) (iblk m c 5 t0_3) (iblk m c 6 t0_3) (iblk m c 7 t0_3) (iblk m c 8 t0_3) (iblk m c 9 t0_3) (iblk m c 10 t0_3) (iblk m c 11 t0_3) (iblk m c 12 t0_3) (iblk m c 13 t0_3) (iblk m c 14 t0_3) (accAt m c (t0_3.val - 1) (Nat.lt_of_le_of_lt (Nat.sub_le _ _) t0_3.isLt)).1 (Wc m c) fu (accAt m c (t0_3.val - 1) (Nat.lt_of_le_of_lt (Nat.sub_le _ _) t0_3.isLt)).2 hcov
      isplitl [HU HH HW]
      · isplitl [HU]
        · iexists fu
          iapply (pointsTo_of_eq eU)
          iexact HU
        isplitl [HH]
        · iapply (owns_of c scH fullShare _ _ ((View.read_writes_of_cover scH.view _ scH.view scH.view.junk _
            (coverH_last c (grid0.coords t0_3) (opsAt t0_3) (fun h => (ne_of_eq_of_ne h3 (by decide)) ((hcondFirst t0_3).mp h)) ((hcondLater t0_3).mpr (ne_of_eq_of_ne h3 (by decide))) ((hcondLast t0_3).mpr h3) (iblk m c 0 t0_3) (iblk m c 1 t0_3) (iblk m c 2 t0_3) (iblk m c 3 t0_3) (iblk m c 4 t0_3) (iblk m c 5 t0_3) (iblk m c 6 t0_3) (iblk m c 7 t0_3) (iblk m c 8 t0_3) (iblk m c 9 t0_3) (iblk m c 10 t0_3) (iblk m c 11 t0_3) (iblk m c 12 t0_3) (iblk m c 13 t0_3) (iblk m c 14 t0_3) (scU.view.read (Elt F) (scU.view.writes (Elt F) fu (accAt m c (t0_3.val - 1) (Nat.lt_of_le_of_lt (Nat.sub_le _ _) t0_3.isLt)).2)) (accAt m c (t0_3.val - 1) (Nat.lt_of_le_of_lt (Nat.sub_le _ _) t0_3.isLt)).1 (Wc m c))).trans
            (congrArg (fun L => scH.view.read (Elt F) (scH.view.writes (Elt F) scH.view.junk L)) eH)))
          iexact HH
        iexact HW
      iframe
      have hOut : (ms15 t0_3).view.read (Elt F) ((ms15 t0_3).view.writes (Elt F) fo (lastAt m c t0_3 (fun h => (ne_of_eq_of_ne h3 (by decide)) ((hcondFirst t0_3).mp h)) ((hcondLater t0_3).mpr (ne_of_eq_of_ne h3 (by decide))) ((hcondLast t0_3).mpr h3) (scU.view.read (Elt F) (scU.view.writes (Elt F) fu (accAt m c (t0_3.val - 1) (Nat.lt_of_le_of_lt (Nat.sub_le _ _) t0_3.isLt)).2)) (accAt m c (t0_3.val - 1) (Nat.lt_of_le_of_lt (Nat.sub_le _ _) t0_3.isLt)).1 (Wc m c)).1) = outC m c :=
        ((congrArg (fun L => (ms15 t0_3).view.read (Elt F) ((ms15 t0_3).view.writes (Elt F) fo L)) eO).trans
          (View.read_writes_of_cover (ms15 t0_3).view fo stO.view stO.view.junk _
            (coverO_last c (grid0.coords t0_3) (opsAt t0_3) (fun h => (ne_of_eq_of_ne h3 (by decide)) ((hcondFirst t0_3).mp h)) ((hcondLater t0_3).mpr (ne_of_eq_of_ne h3 (by decide))) ((hcondLast t0_3).mpr h3) (iblk m c 0 t0_3) (iblk m c 1 t0_3) (iblk m c 2 t0_3) (iblk m c 3 t0_3) (iblk m c 4 t0_3) (iblk m c 5 t0_3) (iblk m c 6 t0_3) (iblk m c 7 t0_3) (iblk m c 8 t0_3) (iblk m c 9 t0_3) (iblk m c 10 t0_3) (iblk m c 11 t0_3) (iblk m c 12 t0_3) (iblk m c 13 t0_3) (iblk m c 14 t0_3) (scU.view.read (Elt F) (scU.view.writes (Elt F) scU.view.junk (accAt m c (t0_3.val - 1) (Nat.lt_of_le_of_lt (Nat.sub_le _ _) t0_3.isLt)).2)) (accAt m c (t0_3.val - 1) (Nat.lt_of_le_of_lt (Nat.sub_le _ _) t0_3.isLt)).1 (Wc m c)))).trans (outC_at3 m c).symm
      iapply (owns_of c (ms15 t0_3) fullShare _ _ hOut)
      iexact H15
    ·
      have hz : t.val ≠ 0 := h0
      have hnl : ¬condLast (grid0.coords t) := fun h => h3 ((hcondLast t).mp h)
      rw [Dat.leavesExact_idle (dats m 0 c) 15 t (idleOut t hnl) (noFlushOut t hnl)]
      rw [accAt_later m c t hz h3]; (try dsimp only)
      rw [PhiS_castSucc m c t, PhiS_pos m c _ _ hz]
      iintro ⟨⟨⟨%fu, HU⟩, HH, HW⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      ihave H15 := (owns_open c (ms15 t) fullShare _) $$ H15
      icases H15 with ⟨%fo, %hfo, H15⟩
      iapply ((laterAt m c t (fun h => hz ((hcondFirst t).mp h)) ((hcondLater t).mpr hz) (fun h => h3 ((hcondLast t).mp h)) (accAt m c (t.val - 1) (Nat.lt_of_le_of_lt (Nat.sub_le _ _) t.isLt)).1 (Wc m c)).2.2 fo (scU.view.writes (Elt F) fu (accAt m c (t.val - 1) (Nat.lt_of_le_of_lt (Nat.sub_le _ _) t.isLt)).2) Set.univ _)
      iframe
      iintro ⟨H0, H1, H2, H3, H4, H5, H6, H7, H8, H9, H10, H11, H12, H13, H14, H15, HU, HH, HW⟩
      isplitl [HU HH HW]
      · isplitl [HU]
        · iexists fu; rw [View.writes_append]; iexact HU
        isplitl [HH]
        · iapply (owns_of c scH fullShare _ _ (View.read_writes_of_cover _ _ _ _ _ (coverH_later c _ _ _ _ _ _ _ _ _ _ _ _ _ _ _ _ _ _ _ _ _ _)))
          iexact HH
        iexact HW
      iframe
      iexists d15
      iapply (owns_of c (ms15 t) fullShare _ fo hfo)
      iexact H15

end Cert.KernelIdeal.Hand

end
-- ==== Proof.KI.Final.lean ====
import proofs.«163186_g6957847020190_cont_9to1_m_143_23_alg».proof.Proof.KI.Dats
import Idealize.ShloMosaic.Lib.Pipeline.Value
import Idealize.ShloMosaic.Lib.Pipeline.Frame
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

theorem idx_out : ∀ t : Fin cfg0.N, win0_15.index t (0 : Fin 2) = 0 ∧ win0_15.index t (1 : Fin 2) = 0 :=
  (by decide +kernel : ∀ t : Fin grid0.N, _)

theorem cut_out (X : S2048x256.Idx → Elt F .f32) (t : Fin cfg0.N) :
    (cfg0.win 15).cut (grid0.coords t) X = ((cfg0.win 15).blk t).view.read (Elt F) X := by
  obtain ⟨e0, e1⟩ := idx_out t
  funext j
  show X j = X (((cfg0.win 15).blk t).view.emb j)
  refine congrArg X ?_
  funext a; apply Fin.ext
  match a with
  | ⟨0, _⟩ => show (j 0).val = win0_15.index t (0 : Fin 2) * 2048 + 1 * (j 0).val; omega
  | ⟨1, _⟩ => show (j 1).val = win0_15.index t (1 : Fin 2) * 256 + 1 * (j 1).val; omega

theorem flushed_out (c : Dev nD) (t : Fin cfg0.N) :
    (dats m 0 c).flushed 15 t = ((cfg0.win 15).blk t).view.read (Elt F) (outC m c) := by
  show (cfg0.win 15).cut (grid0.coords t) ((dats m 0 c).after 15 t) = _
  rw [after15]
  exact cut_out (outC m c) t

theorem cover_out (i : S2048x256.Idx) :
    ∃ t : Fin cfg0.N, (cfg0.win 15).flush t = true ∧ i ∈ ((cfg0.win 15).blk t).view.set := by
  refine ⟨t0_3, (flush0_15 t0_3).mpr rfl, ?_⟩
  obtain ⟨e0, e1⟩ := idx_out t0_3
  show i ∈ ((View.whole main_v6).slice (win0_15.rect t0_3)).set
  rw [View.set_slice_whole, Rect.mem_set_unit]
  intro a
  match a with
  | ⟨0, _⟩ =>
    show win0_15.index t0_3 (0 : Fin 2) * 2048 ≤ (i 0).val ∧ (i 0).val < win0_15.index t0_3 (0 : Fin 2) * 2048 + 2048
    have : (i 0).val < 2048 := (i 0).isLt
    omega
  | ⟨1, _⟩ =>
    show win0_15.index t0_3 (1 : Fin 2) * 256 ≤ (i 1).val ∧ (i 1).val < win0_15.index t0_3 (1 : Fin 2) * 256 + 256
    have : (i 1).val < 256 := (i 1).isLt
    omega

theorem arrAt_out (c : Dev nD) : (dats m 0 c).arrAt 15 cfg0.N = outC m c :=
  (dats m 0 c).arrAt_eq_of_cover 15 (outC m c) (fun t _ => flushed_out m c t) cover_out

theorem isOut_false : ∀ w : Fin cfg0.W, w.val < 15 → (cfg0.win w).isOut = false := by decide

theorem arrAt_in (c : Dev nD) (w : Fin cfg0.W) (hw : w.val < 15) :
    (dats m 0 c).arrAt w cfg0.N = V m c (Pipeline.arrRef spec0 w) :=
  ((dats m 0 c).arrAt_in w (isOut_false w hw) cfg0.N).trans (A_eq m c w)

end Cert.KernelIdeal.Hand
-- ==== Proof.LibSharedLaunch.lean ====
import Idealize.ShloMosaic.Lib.Pipeline.FrameSuffix

noncomputable section

namespace Idealize.ShloMosaic.Pipeline

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

set_option backward.isDefEq.respectTransparency.types false in
theorem θ_run_shared_around
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Vx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hmerge : ∀ c, ((dats p c).arrays ((dats p c).arrAt · (cfg).N) : sProp 𝕄) ⊣⊢ arrBufs (cfg).spec c (fun b => Vx c (Proc.devRef .tc b)))
    (hrest : ∀ c, ∀ b ∈ restRefs sig (cfg).spec, Vx c (Proc.devRef .tc b) = V₀ c (Proc.devRef .tc b))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (Vx c) (Proc.devRef .tc b)) := by
  classical

  have harrx (c : Dev nD) : (arrBufs (cfg).spec c (fun b => StableHlo.after opss.flatten (Vx c) (Proc.devRef .tc b)) : sProp 𝕄)
      = arrBufs (cfg).spec c (fun b => Vx c (Proc.devRef .tc b)) := by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop⟩ := List.mem_flatten.mp hop
    exact hkeep ops hops op hop w
  have hrestx (c : Dev nD) : (unscopedRest (cfg).spec c (fun b => Vx c (Proc.devRef .tc b)) : sProp 𝕄)
      = unscopedRest (cfg).spec c (fun b => V₀ c (Proc.devRef .tc b)) := by
    unfold unscopedRest
    exact bigSep_congr fun b hb => by dsimp only; rw [hrest c b hb]
  exact θ_run_region_noSem_pf_tail (fun q => (cfgs q).toPCfg (Val := Val)) (fun q => (cfgs q).toPCfg_adm) dats () hinj p hw (PreFacts.none _) emb₁ defs₀ 𝒱₀ m g main
    (fun _ => chain (opss.map StableHlo.seq)) hbody hne harr hstage howed
    (u₀ := initOf (cells cfgs hinj) (launchToks cfgs hinj))
    (hu₀ := Entails.rfl)
    (V := fun c b => V₀ c (Proc.devRef .tc b)) (hmain := hmain)
    (hsplit := hsplit)
    (hpf := fun _ k => k.elim0)
    (X := fun _ => iprop(emp))
    (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (Vx c) (Proc.devRef .tc b)))
    (hX := fun c => by
      rw [unscopedRestP_none]
      iintro H; isplitr; · iempintro
      iexact H)
    (hin := fun c => by
      refine Entails.trans ?_ (hin c)
      change iprop(emp ∗ prefHeld _ c _ _ ∗ scopedRest (cfg).spec c) ⊢ (scopedRest (cfg).spec c : sProp 𝕄)
      iintro ⟨-, -, H⟩; iexact H)
    (hout := fun c => by
      refine Entails.trans (hout c) ?_
      change (scopedRest (cfg).spec c : sProp 𝕄) ⊢ iprop(emp ∗ scopedRest (cfg).spec c)
      iintro H; isplitr; · iempintro
      iexact H)
    (htail := fun c Q' => by
      have hheld (W : Valuation τ sig Val) : (StableHlo.held (c.tc : Thread nD τ) (ucRefs τ sig) W : sProp 𝕄)
          = iprop(arrBufs (cfg).spec c (fun b => W (Proc.devRef .tc b)) ∗ unscopedRest (cfg).spec c (fun b => W (Proc.devRef .tc b))) := by
        rw [← unscopedBufs_held (Ix := Unit) (Name := ℕ) (U := UR sig nD τ) (Lvl := ℕ) c W]
        exact unscopedBufs_split₀ cfgs p hw.arr_unscoped c _
      change iprop((iprop((dats p c).arrays ((dats p c).arrAt · (cfg).N) ∗ unscopedRest (cfg).spec c (fun b => StableHlo.after opss.flatten (Vx c) (Proc.devRef .tc b))) -∗ Q' ⟨⟩)
          ∗ boundary (c.tc : Thread nD τ) ∗ (dats p c).arrays ((dats p c).arrAt · (cfg).N) ∗ unscopedRest (cfg).spec c (fun b => V₀ c (Proc.devRef .tc b)))
        ⊢ wp frame (wpE 𝔻 𝕍 (c.tc : Thread nD τ) none) Set.univ (chain (opss.map StableHlo.seq)) Q'
      rw [← List.append_nil (opss.map StableHlo.seq)]
      iintro ⟨Hk, Hb, Ha, Hz⟩
      ihave Ha' := (hmerge c).1 $$ Ha
      iapply (wp_seqs_then (fun q => (cfgs q).toPCfg (Val := Val)) defs₀ 𝒱₀ c (ucRefs τ sig) [] opss
        (fun ops ho op h => sub_ucRefs op (hsub ops ho op h)) hfresh (Vx c)) $$ [Hb Ha' Hz]
      · isplitl [Hb]; · iexact Hb
        rw [hheld, hrestx]
        isplitl [Ha']; · iexact Ha'
        iexact Hz
      iintro Hb
      rw [chain_nil, wp_pure, hheld, harrx]
      imodintro
      iapply Hk
      icases Hb with ⟨-, Ha, Hz⟩
      isplitl [Ha]
      · iapply (hmerge c).2; iexact Ha
      iexact Hz)
    (QY := fun c s => ∀ b ∈ restRefs sig (cfg).spec, s.mem ((c.tc : Thread nD τ).loc b) = StableHlo.after opss.flatten (Vx c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (Vx c) (Proc.devRef .tc b)) s')
      isplitl [HU] <;> iassumption)
    (hQ := fun s h c => ⟨(h c).1, (h c).2.2⟩)

end Idealize.ShloMosaic.Pipeline

end
-- ==== Proof.KI.Frame.lean ====
import proofs.«163186_g6957847020190_cont_9to1_m_143_23_alg».proof.Proof.KI.Body
import proofs.«163186_g6957847020190_cont_9to1_m_143_23_alg».proof.Proof.KI.Final
import proofs.«163186_g6957847020190_cont_9to1_m_143_23_alg».proof.Proof.LibSharedLaunch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem body_obligation (c : Dev nD) : BodyObligation (dats (F := F) m 0 c) (defs₀ (F := F)) Variants.none () Set.univ := fun t => by
  rw [bigSep_W0, bigSep_W0]
  exact sound_body m c t

open Classical in
def Vx (c : Dev nD) : Valuation τ sig (Elt F) :=
  Function.update (V0 m c) (Proc.devRef .tc main_v6) ((dats m 0 c).arrAt 15 cfg0.N)

theorem Vx_out (c : Dev nD) : Vx m c (Proc.devRef .tc main_v6) = (dats m 0 c).arrAt 15 cfg0.N := by
  unfold Vx; exact Function.update_self _ _ _

theorem Vx_of_ne (c : Dev nD) (b : Ref sig .tc) (hb : b ≠ main_v6) : Vx m c (Proc.devRef .tc b) = V0 m c (Proc.devRef .tc b) := by
  unfold Vx; exact Function.update_of_ne (fun h => hb (Proc.devRef_injective _ h)) _ _

theorem arrAt_Vx (c : Dev nD) (w : Fin cfg0.W) : (dats m 0 c).arrAt w cfg0.N = Vx m c (Proc.devRef .tc (Pipeline.arrRef spec0 w)) := by
  by_cases hw : w.val < 15
  · rw [arrAt_in m c w hw]
    exact (Vx_of_ne m c _ (by revert hw; revert w; decide)).symm
  · obtain rfl : w = 15 := by apply Fin.ext; have := w.isLt; simp only [] at this ⊢; omega
    exact (Vx_out m c).symm

theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last, N4]; decide), Phi0_eq]
  iintro ⟨⟨%f, HU⟩, HH, HW⟩
  isplitl [HU]
  · iexists _; iapply (owns_intro (c : Thread nD τ) scU fullShare _); iexact HU
  isplitl [HH]
  · iexists _; iexact HH
  iexists _; iexact HW

set_option backward.isDefEq.respectTransparency.types false in
/-- Every weakly fair execution of the whole program terminates, the result array at the result block and every other array as it was. -/
theorem run_main : θ_run defs (onTc (τ := τ) (main (F := F))) (s₀ m ρ) (fun r => ∀ c : Dev nD,
      (∀ w, r.2.mem (((cfg0).spec w).arr.view.loc (c.tc : Thread nD τ)) = (dats m 0 c).arrAt w cfg0.N)
      ∧ ∀ b ∈ Pipeline.restRefs sig (cfg0).spec, r.2.mem ((c.tc : Thread nD τ).loc b) = StableHlo.after ([] : List (List (HloOp τ sig (Elt F)))).flatten (Vx m c) (Proc.devRef .tc b)) :=
  Pipeline.θ_run_shared_around cfgs (dats m) (0 : Fin 1) defs₀ Variants.none cellOf_inj winFacts₀0 block_pos0 arr_whole0 stage_whole0 m ρ main
    (hbody := fun c => (body_obligation m c).loose) (howed := fun _ _ => rfl) (V₀ := V0 m) (Vx := Vx m) (opss := [])
    (hsub := fun _ h => absurd h List.not_mem_nil) (hfresh := fun _ h => absurd h List.not_mem_nil) (hkeep := fun _ h => absurd h List.not_mem_nil)
    (hmain := hmain m Variants.none)
    (hsplit := fun c => (arrays_iff c (dats m 0 c) rfl (V m c) _ (fun w => A_eq m c w)).1)
    (hmerge := fun c => ⟨(arrays_iff c (dats m 0 c) rfl (fun b => Vx m c (Proc.devRef .tc b)) _ (fun w => arrAt_Vx m c w)).2,
      (arrays_iff c (dats m 0 c) rfl (fun b => Vx m c (Proc.devRef .tc b)) _ (fun w => arrAt_Vx m c w)).1⟩)
    (hrest := fun c b hb => Vx_of_ne m c b (by
      rintro rfl
      exact absurd hb (by decide)))
    (hin := hin m) (hout := hout m)

end Cert.KernelIdeal.Hand

end
-- ==== Proof.KI.Blocks.lean ====
import proofs.«163186_g6957847020190_cont_9to1_m_143_23_alg».proof.Proof.KI.Data
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

theorem idx_facts : ∀ t : Fin cfg0.N,
    win0_0.index t (0 : Fin 2) = 4 * t.val + 0 ∧ win0_0.index t (1 : Fin 2) = 0
    ∧ win0_1.index t (0 : Fin 2) = 4 * t.val + 1 ∧ win0_1.index t (1 : Fin 2) = 0
    ∧ win0_2.index t (0 : Fin 2) = 4 * t.val + 2 ∧ win0_2.index t (1 : Fin 2) = 0
    ∧ win0_3.index t (0 : Fin 2) = 4 * t.val + 3 ∧ win0_3.index t (1 : Fin 2) = 0
    ∧ win0_4.index t (0 : Fin 2) = 0 ∧ win0_4.index t (1 : Fin 2) = t.val
    ∧ win0_5.index t (0 : Fin 2) = 1 ∧ win0_5.index t (1 : Fin 2) = t.val :=
  (by decide +kernel : ∀ t : Fin grid0.N, _)

theorem t_lt (t : Fin cfg0.N) : t.val < 4 := lt_of_lt_of_eq t.isLt N_0

theorem blk0_apply (c : Dev nD) (t : Fin cfg0.N) (p : Fin 128) (k : Fin 2048) :
    (iblk m c 0 t : Vec F S128x2048 .f32) (ix2 p k)
      = (V m c main_arg0 : Vec F S2048x2048 .f32) (ix2 ⟨128 * (4 * t.val + 0) + p.val, by have := t_lt t; omega⟩ k) := by
  obtain ⟨e0, e1, -⟩ := idx_facts t
  show V m c main_arg0 (((cfg0.win 0).blk t).view.emb (ix2 p k)) = _
  refine congrArg (V m c main_arg0) ?_
  funext a; apply Fin.ext
  match a with
  | ⟨0, _⟩ => show win0_0.index t (0 : Fin 2) * 128 + 1 * p.val = 128 * (4 * t.val + 0) + p.val; omega
  | ⟨1, _⟩ => show win0_0.index t (1 : Fin 2) * 2048 + 1 * k.val = k.val; omega

theorem blk1_apply (c : Dev nD) (t : Fin cfg0.N) (p : Fin 128) (k : Fin 2048) :
    (iblk m c 1 t : Vec F S128x2048 .f32) (ix2 p k)
      = (V m c main_arg0 : Vec F S2048x2048 .f32) (ix2 ⟨128 * (4 * t.val + 1) + p.val, by have := t_lt t; omega⟩ k) := by
  obtain ⟨-, -, e0, e1, -⟩ := idx_facts t
  show V m c main_arg0 (((cfg0.win 1).blk t).view.emb (ix2 p k)) = _
  refine congrArg (V m c main_arg0) ?_
  funext a; apply Fin.ext
  match a with
  | ⟨0, _⟩ => show win0_1.index t (0 : Fin 2) * 128 + 1 * p.val = 128 * (4 * t.val + 1) + p.val; omega
  | ⟨1, _⟩ => show win0_1.index t (1 : Fin 2) * 2048 + 1 * k.val = k.val; omega

theorem blk2_apply (c : Dev nD) (t : Fin cfg0.N) (p : Fin 128) (k : Fin 2048) :
    (iblk m c 2 t : Vec F S128x2048 .f32) (ix2 p k)
      = (V m c main_arg0 : Vec F S2048x2048 .f32) (ix2 ⟨128 * (4 * t.val + 2) + p.val, by have := t_lt t; omega⟩ k) := by
  obtain ⟨-, -, -, -, e0, e1, -⟩ := idx_facts t
  show V m c main_arg0 (((cfg0.win 2).blk t).view.emb (ix2 p k)) = _
  refine congrArg (V m c main_arg0) ?_
  funext a; apply Fin.ext
  match a with
  | ⟨0, _⟩ => show win0_2.index t (0 : Fin 2) * 128 + 1 * p.val = 128 * (4 * t.val + 2) + p.val; omega
  | ⟨1, _⟩ => show win0_2.index t (1 : Fin 2) * 2048 + 1 * k.val = k.val; omega

theorem blk3_apply (c : Dev nD) (t : Fin cfg0.N) (p : Fin 128) (k : Fin 2048) :
    (iblk m c 3 t : Vec F S128x2048 .f32) (ix2 p k)
      = (V m c main_arg0 : Vec F S2048x2048 .f32) (ix2 ⟨128 * (4 * t.val + 3) + p.val, by have := t_lt t; omega⟩ k) := by
  obtain ⟨-, -, -, -, -, -, e0, e1, -⟩ := idx_facts t
  show V m c main_arg0 (((cfg0.win 3).blk t).view.emb (ix2 p k)) = _
  refine congrArg (V m c main_arg0) ?_
  funext a; apply Fin.ext
  match a with
  | ⟨0, _⟩ => show win0_3.index t (0 : Fin 2) * 128 + 1 * p.val = 128 * (4 * t.val + 3) + p.val; omega
  | ⟨1, _⟩ => show win0_3.index t (1 : Fin 2) * 2048 + 1 * k.val = k.val; omega

theorem blk4_apply (c : Dev nD) (t : Fin cfg0.N) (p : Fin 1024) (k : Fin 512) :
    (iblk m c 4 t : Vec F S1024x512 .f32) (ix2 p k)
      = (V m c main_arg1 : Vec F S2048x2048 .f32)
          (ix2 ⟨1024 * 0 + p.val, by omega⟩ ⟨512 * t.val + k.val, by have := t_lt t; omega⟩) := by
  obtain ⟨-, -, -, -, -, -, -, -, e0, e1, -⟩ := idx_facts t
  show V m c main_arg1 (((cfg0.win 4).blk t).view.emb (ix2 p k)) = _
  refine congrArg (V m c main_arg1) ?_
  funext a; apply Fin.ext
  match a with
  | ⟨0, _⟩ => show win0_4.index t (0 : Fin 2) * 1024 + 1 * p.val = 1024 * 0 + p.val; omega
  | ⟨1, _⟩ => show win0_4.index t (1 : Fin 2) * 512 + 1 * k.val = 512 * t.val + k.val; omega

theorem blk5_apply (c : Dev nD) (t : Fin cfg0.N) (p : Fin 1024) (k : Fin 512) :
    (iblk m c 5 t : Vec F S1024x512 .f32) (ix2 p k)
      = (V m c main_arg1 : Vec F S2048x2048 .f32)
          (ix2 ⟨1024 * 1 + p.val, by omega⟩ ⟨512 * t.val + k.val, by have := t_lt t; omega⟩) := by
  obtain ⟨-, -, -, -, -, -, -, -, -, -, e0, e1⟩ := idx_facts t
  show V m c main_arg1 (((cfg0.win 5).blk t).view.emb (ix2 p k)) = _
  refine congrArg (V m c main_arg1) ?_
  funext a; apply Fin.ext
  match a with
  | ⟨0, _⟩ => show win0_5.index t (0 : Fin 2) * 1024 + 1 * p.val = 1024 * 1 + p.val; omega
  | ⟨1, _⟩ => show win0_5.index t (1 : Fin 2) * 512 + 1 * k.val = 512 * t.val + k.val; omega

theorem idx_whole : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

theorem blk6_eq (c : Dev nD) (t : Fin cfg0.N) :
    (iblk m c 6 t : Vec F S1x1 .f32) = (V m c main_arg2 : Vec F S1x1 .f32) := by
  obtain ⟨e0, e1⟩ := (idx_whole t).1
  funext j
  show V m c main_arg2 (((cfg0.win 6).blk t).view.emb j) = _
  refine congrArg (V m c main_arg2) ?_
  funext a; apply Fin.ext
  match a with
  | ⟨0, _⟩ => show win0_6.index t (0 : Fin 2) * 1 + 1 * (j 0).val = (j 0).val; omega
  | ⟨1, _⟩ => show win0_6.index t (1 : Fin 2) * 1 + 1 * (j 1).val = (j 1).val; omega

theorem blk7_eq (c : Dev nD) (t : Fin cfg0.N) :
    (iblk m c 7 t : Vec F S256x2048 .f32) = (V m c main_arg3 : Vec F S256x2048 .f32) := by
  obtain ⟨e0, e1⟩ := (idx_whole t).2.1
  funext j
  show V m c main_arg3 (((cfg0.win 7).blk t).view.emb j) = _
  refine congrArg (V m c main_arg3) ?_
  funext a; apply Fin.ext
  match a with
  | ⟨0, _⟩ => show win0_7.index t (0 : Fin 2) * 256 + 1 * (j 0).val = (j 0).val; omega
  | ⟨1, _⟩ => show win0_7.index t (1 : Fin 2) * 2048 + 1 * (j 1).val = (j 1).val; omega

theorem blk8_eq (c : Dev nD) (t : Fin cfg0.N) :
    (iblk m c 8 t : Vec F S1x256 .f32) = (V m c main_v0 : Vec F S1x256 .f32) := by
  obtain ⟨e0, e1⟩ := (idx_whole t).2.2.1
  funext j
  show V m c main_v0 (((cfg0.win 8).blk t).view.emb j) = _
  refine congrArg (V m c main_v0) ?_
  funext a; apply Fin.ext
  match a with
  | ⟨0, _⟩ => show win0_8.index t (0 : Fin 2) * 1 + 1 * (j 0).val = (j 0).val; omega
  | ⟨1, _⟩ => show win0_8.index t (1 : Fin 2) * 256 + 1 * (j 1).val = (j 1).val; omega

theorem blk9_eq (c : Dev nD) (t : Fin cfg0.N) :
    (iblk m c 9 t : Vec F S1x256 .f32) = (V m c main_v1 : Vec F S1x256 .f32) := by
  obtain ⟨e0, e1⟩ := (idx_whole t).2.2.2.1
  funext j
  show V m c main_v1 (((cfg0.win 9).blk t).view.emb j) = _
  refine congrArg (V m c main_v1) ?_
  funext a; apply Fin.ext
  match a with
  | ⟨0, _⟩ => show win0_9.index t (0 : Fin 2) * 1 + 1 * (j 0).val = (j 0).val; omega
  | ⟨1, _⟩ => show win0_9.index t (1 : Fin 2) * 256 + 1 * (j 1).val = (j 1).val; omega

theorem blk10_eq (c : Dev nD) (t : Fin cfg0.N) :
    (iblk m c 10 t : Vec F S1x256 .f32) = (V m c main_v2 : Vec F S1x256 .f32) := by
  obtain ⟨e0, e1⟩ := (idx_whole t).2.2.2.2.1
  funext j
  show V m c main_v2 (((cfg0.win 10).blk t).view.emb j) = _
  refine congrArg (V m c main_v2) ?_
  funext a; apply Fin.ext
  match a with
  | ⟨0, _⟩ => show win0_10.index t (0 : Fin 2) * 1 + 1 * (j 0).val = (j 0).val; omega
  | ⟨1, _⟩ => show win0_10.index t (1 : Fin 2) * 256 + 1 * (j 1).val = (j 1).val; omega

theorem blk11_eq (c : Dev nD) (t : Fin cfg0.N) :
    (iblk m c 11 t : Vec F S256x256 .f32) = (V m c main_arg7 : Vec F S256x256 .f32) := by
  obtain ⟨e0, e1⟩ := (idx_whole t).2.2.2.2.2.1
  funext j
  show V m c main_arg7 (((cfg0.win 11).blk t).view.emb j) = _
  refine congrArg (V m c main_arg7) ?_
  funext a; apply Fin.ext
  match a with
  | ⟨0, _⟩ => show win0_11.index t (0 : Fin 2) * 256 + 1 * (j 0).val = (j 0).val; omega
  | ⟨1, _⟩ => show win0_11.index t (1 : Fin 2) * 256 + 1 * (j 1).val = (j 1).val; omega

theorem blk12_eq (c : Dev nD) (t : Fin cfg0.N) :
    (iblk m c 12 t : Vec F S1x256 .f32) = (V m c main_v3 : Vec F S1x256 .f32) := by
  obtain ⟨e0, e1⟩ := (idx_whole t).2.2.2.2.2.2.1
  funext j
  show V m c main_v3 (((cfg0.win 12).blk t).view.emb j) = _
  refine congrArg (V m c main_v3) ?_
  funext a; apply Fin.ext
  match a with
  | ⟨0, _⟩ => show win0_12.index t (0 : Fin 2) * 1 + 1 * (j 0).val = (j 0).val; omega
  | ⟨1, _⟩ => show win0_12.index t (1 : Fin 2) * 256 + 1 * (j 1).val = (j 1).val; omega

theorem blk13_eq (c : Dev nD) (t : Fin cfg0.N) :
    (iblk m c 13 t : Vec F S1x256 .f32) = (V m c main_v4 : Vec F S1x256 .f32) := by
  obtain ⟨e0, e1⟩ := (idx_whole t).2.2.2.2.2.2.2.1
  funext j
  show V m c main_v4 (((cfg0.win 13).blk t).view.emb j) = _
  refine congrArg (V m c main_v4) ?_
  funext a; apply Fin.ext
  match a with
  | ⟨0, _⟩ => show win0_13.index t (0 : Fin 2) * 1 + 1 * (j 0).val = (j 0).val; omega
  | ⟨1, _⟩ => show win0_13.index t (1 : Fin 2) * 256 + 1 * (j 1).val = (j 1).val; omega

theorem blk14_eq (c : Dev nD) (t : Fin cfg0.N) :
    (iblk m c 14 t : Vec F S1x256 .f32) = (V m c main_v5 : Vec F S1x256 .f32) := by
  obtain ⟨e0, e1⟩ := (idx_whole t).2.2.2.2.2.2.2.2
  funext j
  show V m c main_v5 (((cfg0.win 14).blk t).view.emb j) = _
  refine congrArg (V m c main_v5) ?_
  funext a; apply Fin.ext
  match a with
  | ⟨0, _⟩ => show win0_14.index t (0 : Fin 2) * 1 + 1 * (j 0).val = (j 0).val; omega
  | ⟨1, _⟩ => show win0_14.index t (1 : Fin 2) * 256 + 1 * (j 1).val = (j 1).val; omega

theorem V_arg0 (c : Dev nD) : V m c main_arg0 = m ((c : Thread nD τ).loc main_arg0) := by
  show StableHlo.after hostOps0 (fun b => m (c, b)) (Proc.devRef .tc main_arg0) = _
  after_results

theorem V_arg1 (c : Dev nD) : V m c main_arg1 = m ((c : Thread nD τ).loc main_arg1) := by
  show StableHlo.after hostOps0 (fun b => m (c, b)) (Proc.devRef .tc main_arg1) = _
  after_results

theorem V_arg2 (c : Dev nD) : V m c main_arg2 = m ((c : Thread nD τ).loc main_arg2) := by
  show StableHlo.after hostOps0 (fun b => m (c, b)) (Proc.devRef .tc main_arg2) = _
  after_results

theorem V_arg3 (c : Dev nD) : V m c main_arg3 = m ((c : Thread nD τ).loc main_arg3) := by
  show StableHlo.after hostOps0 (fun b => m (c, b)) (Proc.devRef .tc main_arg3) = _
  after_results

theorem V_arg7 (c : Dev nD) : V m c main_arg7 = m ((c : Thread nD τ).loc main_arg7) := by
  show StableHlo.after hostOps0 (fun b => m (c, b)) (Proc.devRef .tc main_arg7) = _
  after_results

/-- Reshaping 256 entries into one row keeps entry k at (0, k). -/
theorem reshape_row_apply (x : Vec F S256 .f32) (k : Fin 256) :
    shapeCast S1x256 x shapeCasts_S256_S1x256 (ix2 0 k) = x (ix1 k) := by
  refine shapeCast_apply _ _ (ix2 0 k) (ix1 k) ?_
  rw [Shape.rowMajor_val_one, Shape.rowMajor_val_two]
  show k.val = 0 * 256 + k.val
  omega

theorem V_v0_apply (c : Dev nD) (k : Fin 256) :
    (V m c main_v0 : Vec F S1x256 .f32) (ix2 0 k) = (m ((c : Thread nD τ).loc main_arg4) : Vec F S256 .f32) (ix1 k) := by
  refine (congrFun (?_ : (V m c main_v0 : Vec F S1x256 .f32) = shapeCast S1x256 _ shapeCasts_S256_S1x256) _).trans
    (reshape_row_apply (m ((c : Thread nD τ).loc main_arg4)) k)
  show StableHlo.after hostOps0 (fun b => m (c, b)) (Proc.devRef .tc main_v0) = _
  after_results
  rfl

theorem V_v1_apply (c : Dev nD) (k : Fin 256) :
    (V m c main_v1 : Vec F S1x256 .f32) (ix2 0 k) = (m ((c : Thread nD τ).loc main_arg5) : Vec F S256 .f32) (ix1 k) := by
  refine (congrFun (?_ : (V m c main_v1 : Vec F S1x256 .f32) = shapeCast S1x256 _ shapeCasts_S256_S1x256) _).trans
    (reshape_row_apply (m ((c : Thread nD τ).loc main_arg5)) k)
  show StableHlo.after hostOps0 (fun b => m (c, b)) (Proc.devRef .tc main_v1) = _
  after_results
  rfl

theorem V_v2_apply (c : Dev nD) (k : Fin 256) :
    (V m c main_v2 : Vec F S1x256 .f32) (ix2 0 k) = (m ((c : Thread nD τ).loc main_arg6) : Vec F S256 .f32) (ix1 k) := by
  refine (congrFun (?_ : (V m c main_v2 : Vec F S1x256 .f32) = shapeCast S1x256 _ shapeCasts_S256_S1x256) _).trans
    (reshape_row_apply (m ((c : Thread nD τ).loc main_arg6)) k)
  show StableHlo.after hostOps0 (fun b => m (c, b)) (Proc.devRef .tc main_v2) = _
  after_results
  rfl

theorem V_v3_apply (c : Dev nD) (k : Fin 256) :
    (V m c main_v3 : Vec F S1x256 .f32) (ix2 0 k) = (m ((c : Thread nD τ).loc main_arg8) : Vec F S256 .f32) (ix1 k) := by
  refine (congrFun (?_ : (V m c main_v3 : Vec F S1x256 .f32) = shapeCast S1x256 _ shapeCasts_S256_S1x256) _).trans
    (reshape_row_apply (m ((c : Thread nD τ).loc main_arg8)) k)
  show StableHlo.after hostOps0 (fun b => m (c, b)) (Proc.devRef .tc main_v3) = _
  after_results
  rfl

theorem V_v4_apply (c : Dev nD) (k : Fin 256) :
    (V m c main_v4 : Vec F S1x256 .f32) (ix2 0 k) = (m ((c : Thread nD τ).loc main_arg9) : Vec F S256 .f32) (ix1 k) := by
  refine (congrFun (?_ : (V m c main_v4 : Vec F S1x256 .f32) = shapeCast S1x256 _ shapeCasts_S256_S1x256) _).trans
    (reshape_row_apply (m ((c : Thread nD τ).loc main_arg9)) k)
  show StableHlo.after hostOps0 (fun b => m (c, b)) (Proc.devRef .tc main_v4) = _
  after_results
  rfl

theorem V_v5_apply (c : Dev nD) (k : Fin 256) :
    (V m c main_v5 : Vec F S1x256 .f32) (ix2 0 k) = (m ((c : Thread nD τ).loc main_arg10) : Vec F S256 .f32) (ix1 k) := by
  refine (congrFun (?_ : (V m c main_v5 : Vec F S1x256 .f32) = shapeCast S1x256 _ shapeCasts_S256_S1x256) _).trans
    (reshape_row_apply (m ((c : Thread nD τ).loc main_arg10)) k)
  show StableHlo.after hostOps0 (fun b => m (c, b)) (Proc.devRef .tc main_v5) = _
  after_results
  rfl

end Cert.KernelIdeal.Hand
-- ==== Proof.KI.Claims.lean ====
import proofs.«163186_g6957847020190_cont_9to1_m_143_23_alg».proof.Proof.KI.Frame
import proofs.«163186_g6957847020190_cont_9to1_m_143_23_alg».proof.Proof.KI.Blocks

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- The reshapes before the region write only their own results, so every other buffer enters the region as launched. -/
theorem V_of_arg (c : Dev nD) (b : Ref sig .tc) (hb : b ∈ [main_arg0, main_arg1, main_arg2, main_arg3, main_arg4, main_arg5,
    main_arg6, main_arg7, main_arg8, main_arg9, main_arg10]) : V m c b = m ((c : Thread nD τ).loc b) := by
  simp only [List.mem_cons, List.not_mem_nil, or_false] at hb
  rcases hb with rfl | rfl | rfl | rfl | rfl | rfl | rfl | rfl | rfl | rfl | rfl <;>
    (show StableHlo.after hostOps0 (fun b => m (c, b)) (Proc.devRef .tc _) = _; after_results)

/-- What the run leaves: the result array holds the result block, and each argument array, a window's or one the region
    never touches, what it held at the launch. -/
theorem claims_of_post (c : Dev nD) (mem : (ℓ : Loc nD τ sig) → Buf (Elt F) ℓ)
    (h : (∀ w, mem ((cfg0.spec w).arr.view.loc (c.tc : Thread nD τ)) = (dats m 0 c).arrAt w cfg0.N)
      ∧ ∀ b ∈ Pipeline.restRefs sig cfg0.spec, mem ((c.tc : Thread nD τ).loc b)
          = StableHlo.after ([] : List (List (HloOp τ sig (Elt F)))).flatten (Vx m c) (Proc.devRef .tc b)) :
    mem ((c.tc : Thread nD τ).loc main_v6) = outC m c
      ∧ mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10) :=
  have win (w : Fin cfg0.W) (hw : w.val < 15) := (h.1 w).trans (arrAt_in m c w hw)
  have rest (b : Ref sig .tc) (hb : b ∈ Pipeline.restRefs sig cfg0.spec) (hne : b ≠ main_v6) :=
    (h.2 b hb).trans (Vx_of_ne m c b hne)
  ⟨(h.1 15).trans (arrAt_out m c),
    (win 0 (by decide)).trans (V_of_arg m c _ (by decide)),
    (win 4 (by decide)).trans (V_of_arg m c _ (by decide)),
    (win 6 (by decide)).trans (V_of_arg m c _ (by decide)),
    (win 7 (by decide)).trans (V_of_arg m c _ (by decide)),
    (rest main_arg4 (Pipeline.mem_restRefs_of _ rfl (by decide)) (by decide)).trans (V_of_arg m c _ (by decide)),
    (rest main_arg5 (Pipeline.mem_restRefs_of _ rfl (by decide)) (by decide)).trans (V_of_arg m c _ (by decide)),
    (rest main_arg6 (Pipeline.mem_restRefs_of _ rfl (by decide)) (by decide)).trans (V_of_arg m c _ (by decide)),
    (win 11 (by decide)).trans (V_of_arg m c _ (by decide)),
    (rest main_arg8 (Pipeline.mem_restRefs_of _ rfl (by decide)) (by decide)).trans (V_of_arg m c _ (by decide)),
    (rest main_arg9 (Pipeline.mem_restRefs_of _ rfl (by decide)) (by decide)).trans (V_of_arg m c _ (by decide)),
    (rest main_arg10 (Pipeline.mem_restRefs_of _ rfl (by decide)) (by decide)).trans (V_of_arg m c _ (by decide))⟩

end Cert.KernelIdeal.Hand

end
-- ==== Proof.Spec.lean ====
import Idealize.ShloMosaic.PureOps.Ideal.Laws
import Idealize.ShloMosaic.Lib.ValueIdx

noncomputable section

namespace Cert.Gin

open Idealize.ShloMosaic Idealize.ShloMosaic.ValueIdx

abbrev zeroW : EReal := Ideal.ofBits .f32 0x00000000#32
abbrev c256 : EReal := Ideal.ofBits .f32 0x43800000#32
abbrev epsLN : EReal := Ideal.ofBits .f32 0x3727C5AC#32

/-- A row's mean over its 256 entries. -/
def mean (x : Fin 256 → EReal) : EReal := Ideal.div (∑ k, x k) c256

/-- A row's variance: the mean of the squared deviations from the row's mean. -/
def var (x : Fin 256 → EReal) : EReal := Ideal.div (∑ k, (x k - mean x) * (x k - mean x)) c256

/-- Normalise by mean and standard deviation, scale, shift, clamp at zero: dividing by the square root. -/
def lnRelu (x g b : Fin 256 → EReal) (j : Fin 256) : EReal :=
  max (Ideal.div (x j - mean x) (Ideal.sqrt (var x + epsLN)) * g j + b j) zeroW

/-- The same, multiplying by the reciprocal square root. -/
def lnReluK (x g b : Fin 256 → EReal) (j : Fin 256) : EReal :=
  max ((x j - mean x) * Ideal.rsqrt (var x + epsLN) * g j + b j) zeroW

/-- A dense layer on a row: y·Wᵀ + b. -/
def dense2 (y : Fin 256 → EReal) (W : (⟨2, ![256, 256]⟩ : Shape).Idx → EReal) (b : (⟨1, ![256]⟩ : Shape).Idx → EReal)
    (j : Fin 256) : EReal :=
  (∑ k : Fin 256, y k * W (ix2 j k)) + b (ix1 j)

/-- Entry (r, j) of v·W1ᵀ. -/
def vW (v : (⟨2, ![2048, 2048]⟩ : Shape).Idx → EReal) (W1 : (⟨2, ![256, 2048]⟩ : Shape).Idx → EReal)
    (r : Fin 2048) (j : Fin 256) : EReal :=
  ∑ k : Fin 2048, v (ix2 r k) * W1 (ix2 j k)

def col (t : ℕ) (q : Fin 512) : Fin 2048 := ⟨(512 * t + q.val) % 2048, Nat.mod_lt _ (by norm_num)⟩

/-- The block-t part of a·(v·W1ᵀ): the 512 columns of a from 512·t on against the same rows of v·W1ᵀ. -/
def part (v a : (⟨2, ![2048, 2048]⟩ : Shape).Idx → EReal) (W1 : (⟨2, ![256, 2048]⟩ : Shape).Idx → EReal)
    (t : ℕ) (r : Fin 2048) (j : Fin 256) : EReal :=
  ∑ q : Fin 512, a (ix2 r (col t q)) * vW v W1 (col t q) j

/-- The four parts added up in order. -/
def acc (v a : (⟨2, ![2048, 2048]⟩ : Shape).Idx → EReal) (W1 : (⟨2, ![256, 2048]⟩ : Shape).Idx → EReal) :
    ℕ → Fin 2048 → Fin 256 → EReal
  | 0, r, j => part v a W1 0 r j
  | t + 1, r, j => acc v a W1 t r j + part v a W1 (t + 1) r j

/-- The first affine map in the kernel's association: a·(v·W1ᵀ) + ε·(v·W1ᵀ) + b1. -/
def preK (v a : (⟨2, ![2048, 2048]⟩ : Shape).Idx → EReal) (e : (⟨2, ![1, 1]⟩ : Shape).Idx → EReal)
    (W1 : (⟨2, ![256, 2048]⟩ : Shape).Idx → EReal) (b1 : (⟨1, ![256]⟩ : Shape).Idx → EReal) (r : Fin 2048) (j : Fin 256) : EReal :=
  (acc v a W1 3 r j + e (ix2 0 0) * vW v W1 r j) + b1 (ix1 j)

/-- The first affine map in the reference's association: (a·v + ε·v)·W1ᵀ + b1. -/
def preR (v a : (⟨2, ![2048, 2048]⟩ : Shape).Idx → EReal) (e : (⟨2, ![1, 1]⟩ : Shape).Idx → EReal)
    (W1 : (⟨2, ![256, 2048]⟩ : Shape).Idx → EReal) (b1 : (⟨1, ![256]⟩ : Shape).Idx → EReal) (r : Fin 2048) (j : Fin 256) : EReal :=
  (∑ k : Fin 2048, ((∑ q : Fin 2048, a (ix2 r q) * v (ix2 q k)) + e (ix2 0 0) * v (ix2 r k)) * W1 (ix2 j k)) + b1 (ix1 j)

/-- The whole layer from the rows of its first affine map: what both results are read as. -/
def layer (pre : Fin 2048 → Fin 256 → EReal) (g1 be1 : (⟨1, ![256]⟩ : Shape).Idx → EReal)
    (W2 : (⟨2, ![256, 256]⟩ : Shape).Idx → EReal) (b2 g2 be2 : (⟨1, ![256]⟩ : Shape).Idx → EReal)
    (r : Fin 2048) (j : Fin 256) : EReal :=
  lnRelu (dense2 (lnRelu (pre r) (fun k => g1 (ix1 k)) (fun k => be1 (ix1 k))) W2 b2)
    (fun k => g2 (ix1 k)) (fun k => be2 (ix1 k)) j

def AllReal {s : Shape} (x : s.Idx → EReal) : Prop := ∀ i, ∃ r : ℝ, x i = (r : EReal)

end Cert.Gin

end
-- ==== Proof.LibTransposedRhsDot.lean ====
import Idealize.ShloMosaic.PureOps.Ideal.Laws
import Idealize.ShloMosaic.Lib.ValueIdx

noncomputable section

namespace Cert.Lib.TransposedRhsDot

open Idealize.ShloMosaic Idealize.ShloMosaic.ValueIdx

variable (M K N : Nat)

theorem lhs_axis0 (i : (⟨2, ![M, N]⟩ : Shape).Idx) (r : (DotDims.transposedRhs M K N).contr.Idx) :
    ((DotDims.transposedRhs M K N).lhsIdx i r 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

theorem lhs_axis1 (i : (⟨2, ![M, N]⟩ : Shape).Idx) (r : (DotDims.transposedRhs M K N).contr.Idx) :
    ((DotDims.transposedRhs M K N).lhsIdx i r 1).val = (r ⟨0, Nat.one_pos⟩).val :=
  (DotDims.transposedRhs M K N).lhsIdx_val_of_single rfl i r

theorem rhs_axis0 (i : (⟨2, ![M, N]⟩ : Shape).Idx) (r : (DotDims.transposedRhs M K N).contr.Idx) :
    ((DotDims.transposedRhs M K N).rhsIdx i r 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

theorem rhs_axis1 (i : (⟨2, ![M, N]⟩ : Shape).Idx) (r : (DotDims.transposedRhs M K N).contr.Idx) :
    ((DotDims.transposedRhs M K N).rhsIdx i r 1).val = (r ⟨0, Nat.one_pos⟩).val :=
  (DotDims.transposedRhs M K N).rhsIdx_val_of_single rfl i r

theorem sum_eq (lhs : (⟨2, ![M, K]⟩ : Shape).Idx → EReal) (rhs : (⟨2, ![N, K]⟩ : Shape).Idx → EReal)
    (p : Fin M) (q : Fin N) :
    (∑ r : (DotDims.transposedRhs M K N).contr.Idx,
        lhs ((DotDims.transposedRhs M K N).lhsIdx (ix2 p q) r) * rhs ((DotDims.transposedRhs M K N).rhsIdx (ix2 p q) r))
      = ∑ k : Fin K, lhs (ix2 p k) * rhs (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_axis0 M K N _ _
      | ⟨1, _⟩ => exact (rhs_axis1 M K N _ _).trans hk)
  rw [el, er]

theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply]
  exact sum_eq M K N lhs rhs p q

theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) := by
  rw [Ideal.dotGeneral_apply]
  exact sum_eq M K N lhs rhs p q

end Cert.Lib.TransposedRhsDot

end
-- ==== Proof.LibKeepdims.lean ====
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.KI.PayloadsA.lean ====
import proofs.«163186_g6957847020190_cont_9to1_m_143_23_alg».proof.Proof.Gen.KernelIdeal.Skeleton
import proofs.«163186_g6957847020190_cont_9to1_m_143_23_alg».proof.Proof.Spec
import Idealize.ShloMosaic.Lib.StackMember
import Idealize.ShloMosaic.Lib.KernelVsHost
import proofs.«163186_g6957847020190_cont_9to1_m_143_23_alg».proof.Proof.LibTransposedRhsDot
import proofs.«163186_g6957847020190_cont_9to1_m_143_23_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

theorem pay13_eq (x : Vec Ideal S256x2048 .f32) : k0_pay13 (F := Ideal) x = x := by
  unfold k0_pay13
  exact (shapeCast_self _ shapeCasts_S256x2048_S256x2048).trans rfl

theorem pay1_eq (v : FVec Ideal S128x256 .bf16) : k0_pay1 (F := Ideal) v = v := by
  unfold k0_pay1
  exact shapeCast_self _ _

theorem pay3_eq (x : Vec Ideal S128x2048 .f32) (w : Vec Ideal S256x2048 .bf16) :
    k0_pay3 (F := Ideal) x w = k0_pay2 (F := Ideal) x w := by
  unfold k0_pay3
  exact shapeCast_self _ _

theorem pay15_eq (x : Vec Ideal S128x2048 .f32) (w : Vec Ideal S256x2048 .bf16) :
    k0_pay15 (F := Ideal) x w = k0_pay14 (F := Ideal) x w := by
  unfold k0_pay15
  exact shapeCast_self _ _

theorem pay17_eq (x : Vec Ideal S128x2048 .f32) (w : Vec Ideal S256x2048 .bf16) :
    k0_pay17 (F := Ideal) x w = k0_pay16 (F := Ideal) x w := by
  unfold k0_pay17
  exact shapeCast_self _ _

theorem pay7_eq (v7 v18 v29 : FVec Ideal S128x256 .bf16) (x4 : Vec Ideal S128x2048 .f32) (w : Vec Ideal S256x2048 .bf16)
    (a : Vec Ideal S1024x512 .f32) :
    k0_pay7 (F := Ideal) v7 v18 v29 x4 w a = k0_pay5 (F := Ideal) v7 v18 v29 x4 w a := by
  unfold k0_pay7
  exact shapeCast_self _ _

theorem pay8_eq (v7 v18 v29 : FVec Ideal S128x256 .bf16) (x4 : Vec Ideal S128x2048 .f32) (w : Vec Ideal S256x2048 .bf16)
    (a : Vec Ideal S1024x512 .f32) :
    k0_pay8 (F := Ideal) v7 v18 v29 x4 w a = k0_pay6 (F := Ideal) v7 v18 v29 x4 w a := by
  unfold k0_pay8
  exact shapeCast_self _ _

theorem dotStrip_eq : dot_S128x2048_S256x2048_S128x256_1_1_0_0_n_n = DotDims.transposedRhs 128 2048 256 := rfl

theorem strip_apply (x : FVec Ideal S128x2048 .f32) (w : FVec Ideal S256x2048 .bf16) (p : Fin 128) (q : Fin 256) :
    (truncf .bf16 (matmul dot_S128x2048_S256x2048_S128x256_1_1_0_0_n_n none (truncf .bf16 x bitsLt_bf16_f32) w
        (constant (F := Ideal) S128x256 .f32 0x00000000#32)) bitsLt_bf16_f32 : FVec Ideal S128x256 .bf16) (ix2 p q)
      = ∑ k : Fin 2048, x (ix2 p k) * w (ix2 q k) :=
  Cert.Lib.TransposedRhsDot.matmul_zero_apply 128 2048 256 none (truncf .bf16 x bitsLt_bf16_f32) w p q

theorem pay14_apply (x : Vec Ideal S128x2048 .f32) (w : Vec Ideal S256x2048 .bf16) (p : Fin 128) (q : Fin 256) :
    k0_pay14 (F := Ideal) x w (ix2 p q) = ∑ k : Fin 2048, x (ix2 p k) * w (ix2 q k) := strip_apply x w p q

theorem pay16_apply (x : Vec Ideal S128x2048 .f32) (w : Vec Ideal S256x2048 .bf16) (p : Fin 128) (q : Fin 256) :
    k0_pay16 (F := Ideal) x w (ix2 p q) = ∑ k : Fin 2048, x (ix2 p k) * w (ix2 q k) := strip_apply x w p q

theorem pay18_apply (x : Vec Ideal S128x2048 .f32) (w : Vec Ideal S256x2048 .bf16) (p : Fin 128) (q : Fin 256) :
    k0_pay18 (F := Ideal) x w (ix2 p q) = ∑ k : Fin 2048, x (ix2 p k) * w (ix2 q k) := strip_apply x w p q

theorem pay2_apply (x : Vec Ideal S128x2048 .f32) (w : Vec Ideal S256x2048 .bf16) (p : Fin 128) (q : Fin 256) :
    k0_pay2 (F := Ideal) x w (ix2 p q) = ∑ k : Fin 2048, x (ix2 p k) * w (ix2 q k) := strip_apply x w p q

theorem pay4_apply (v7 v18 v29 : FVec Ideal S128x256 .bf16) (x4 : Vec Ideal S128x2048 .f32) (w : Vec Ideal S256x2048 .bf16)
    (p : Fin 512) (q : Fin 256) :
    k0_pay4 (F := Ideal) v7 v18 v29 x4 w (ix2 p q)
      = if h : p.val < 128 then v7 (ix2 ⟨p.val, h⟩ q)
        else if h : p.val < 256 then v18 (ix2 ⟨p.val - 128, by omega⟩ q)
        else if h : p.val < 384 then v29 (ix2 ⟨p.val - 256, by omega⟩ q)
        else k0_pay2 (F := Ideal) x4 w (ix2 ⟨p.val - 384, by have := p.isLt; omega⟩ q) := by
  unfold k0_pay4
  have hoff : ∀ (P : Fin 128) (b : Fin S128x256.rank), b.cast (rfl : S128x256.rank = S512x256.rank) ≠ 0 →
      ((ix2 P q : S128x256.Idx) b).val = ((ix2 p q : S512x256.Idx) (b.cast rfl)).val := by
    intro P b hb
    match b with
    | ⟨0, _⟩ => exact absurd rfl hb
    | ⟨1, _⟩ => rfl
  split_ifs with h1 h2 h3
  · exact concatenate_apply_piece 0 _ _ (ix2 p q) 0 (by simp) S128x256 v7 rfl rfl 0 rfl (ix2 ⟨p.val, h1⟩ q) (hoff _)
      (by show 0 + p.val = p.val; omega)
  · exact concatenate_apply_piece 0 _ _ (ix2 p q) 1 (by simp) S128x256 v18 rfl rfl 128 rfl (ix2 ⟨p.val - 128, by omega⟩ q) (hoff _)
      (by show 128 + (p.val - 128) = p.val; omega)
  · exact concatenate_apply_piece 0 _ _ (ix2 p q) 2 (by simp) S128x256 v29 rfl rfl 256 rfl (ix2 ⟨p.val - 256, by omega⟩ q) (hoff _)
      (by show 256 + (p.val - 256) = p.val; omega)
  · exact concatenate_apply_piece 0 _ _ (ix2 p q) 3 (by simp) S128x256 (k0_pay2 (F := Ideal) x4 w) rfl rfl 384 rfl
      (ix2 ⟨p.val - 384, by have := p.isLt; omega⟩ q) (hoff _) (by show 384 + (p.val - 384) = p.val; have := p.isLt; omega)

theorem dotBlock_eq : dot_S1024x512_S512x256_S1024x256_1_0_0_1_n_n = DotDims.plain 1024 512 256 := rfl

theorem pay5_apply (v7 v18 v29 : FVec Ideal S128x256 .bf16) (x4 : Vec Ideal S128x2048 .f32) (w : Vec Ideal S256x2048 .bf16)
    (a : Vec Ideal S1024x512 .f32) (p : Fin 1024) (q : Fin 256) :
    k0_pay5 (F := Ideal) v7 v18 v29 x4 w a (ix2 p q)
      = ∑ k : Fin 512, a (ix2 p k) * k0_pay4 (F := Ideal) v7 v18 v29 x4 w (ix2 k q) :=
  (congrFun (matmul_zero_eq_dotGeneral (DotDims.plain 1024 512 256) none _ _) _).trans
    (StackMember.dotGeneral_plain_apply none (truncf .bf16 (show FVec Ideal S1024x512 .f32 from a) bitsLt_bf16_f32)
      (k0_pay4 (F := Ideal) v7 v18 v29 x4 w) p q)

theorem pay6_apply (v7 v18 v29 : FVec Ideal S128x256 .bf16) (x4 : Vec Ideal S128x2048 .f32) (w : Vec Ideal S256x2048 .bf16)
    (a : Vec Ideal S1024x512 .f32) (p : Fin 1024) (q : Fin 256) :
    k0_pay6 (F := Ideal) v7 v18 v29 x4 w a (ix2 p q)
      = ∑ k : Fin 512, a (ix2 p k) * k0_pay4 (F := Ideal) v7 v18 v29 x4 w (ix2 k q) :=
  (congrFun (matmul_zero_eq_dotGeneral (DotDims.plain 1024 512 256) none _ _) _).trans
    (StackMember.dotGeneral_plain_apply none (truncf .bf16 (show FVec Ideal S1024x512 .f32 from a) bitsLt_bf16_f32)
      (k0_pay4 (F := Ideal) v7 v18 v29 x4 w) p q)

theorem pay9_apply (v7 v18 v29 : FVec Ideal S128x256 .bf16) (x4 : Vec Ideal S128x2048 .f32) (w : Vec Ideal S256x2048 .bf16)
    (a : Vec Ideal S1024x512 .f32) (v63 : Vec Ideal S1024x256 .f32) (i : S1024x256.Idx) :
    k0_pay9 (F := Ideal) v7 v18 v29 x4 w a v63 i = v63 i + k0_pay5 (F := Ideal) v7 v18 v29 x4 w a i := by
  unfold k0_pay9
  rw [shapeCast_self]
  rfl

theorem pay10_apply (v7 v18 v29 : FVec Ideal S128x256 .bf16) (x4 : Vec Ideal S128x2048 .f32) (w : Vec Ideal S256x2048 .bf16)
    (a : Vec Ideal S1024x512 .f32) (v68 : Vec Ideal S1024x256 .f32) (i : S1024x256.Idx) :
    k0_pay10 (F := Ideal) v7 v18 v29 x4 w a v68 i = v68 i + k0_pay6 (F := Ideal) v7 v18 v29 x4 w a i := by
  unfold k0_pay10
  rw [shapeCast_self]
  rfl

end Cert.KernelIdeal.Hand
-- ==== Proof.KI.ValueParts.lean ====
import proofs.«163186_g6957847020190_cont_9to1_m_143_23_alg».proof.Proof.KI.PayloadsA
import proofs.«163186_g6957847020190_cont_9to1_m_143_23_alg».proof.Proof.KI.Blocks
import proofs.«163186_g6957847020190_cont_9to1_m_143_23_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

abbrev aV : (⟨2, ![2048, 2048]⟩ : Shape).Idx → EReal := m ((c : Thread nD τ).loc main_arg0)

abbrev aA : (⟨2, ![2048, 2048]⟩ : Shape).Idx → EReal := m ((c : Thread nD τ).loc main_arg1)

abbrev aE : (⟨2, ![1, 1]⟩ : Shape).Idx → EReal := m ((c : Thread nD τ).loc main_arg2)

abbrev aW : (⟨2, ![256, 2048]⟩ : Shape).Idx → EReal := m ((c : Thread nD τ).loc main_arg3)

theorem ix2_congr {n0 n1 : ℕ} {a a' : Fin n0} {b b' : Fin n1} (ha : a.val = a'.val) (hb : b.val = b'.val) :
    ix2 a b = ix2 a' b' := by
  rw [Fin.ext ha, Fin.ext hb]

theorem col_val (t : Fin cfg0.N) (k : Fin 512) : (Cert.Gin.col t.val k).val = 512 * t.val + k.val := by
  have h1 := t_lt t
  have h2 := k.isLt
  show (512 * t.val + k.val) % 2048 = _
  exact Nat.mod_eq_of_lt (by omega)

theorem strip4_apply (t : Fin cfg0.N) (w : Vec Ideal S256x2048 .bf16) (hw : ∀ y, w y = aW m c y) (k : Fin 512) (q : Fin 256) :
    k0_pay4 (F := Ideal) (k0_pay14 (F := Ideal) (iblk m c 0 t) w) (k0_pay16 (F := Ideal) (iblk m c 1 t) w) (k0_pay18 (F := Ideal) (iblk m c 2 t) w) (iblk m c 3 t) w (ix2 k q)
      = Cert.Gin.vW (aV m c) (aW m c) (Cert.Gin.col t.val k) q := by
  have hc := col_val t k
  have hk := k.isLt
  rw [pay4_apply]
  unfold Cert.Gin.vW
  split_ifs with h1 h2 h3
  · rw [pay14_apply]
    refine Finset.sum_congr rfl fun k' _ => ?_
    rw [blk0_apply, V_arg0, hw]
    refine congrArg₂ (fun (x y : EReal) => x * y) (congrArg (aV m c) (ix2_congr ?_ rfl)) rfl
    rw [hc]; show 128 * (4 * t.val + 0) + k.val = 512 * t.val + k.val; omega
  · rw [pay16_apply]
    refine Finset.sum_congr rfl fun k' _ => ?_
    rw [blk1_apply, V_arg0, hw]
    refine congrArg₂ (fun (x y : EReal) => x * y) (congrArg (aV m c) (ix2_congr ?_ rfl)) rfl
    rw [hc]; show 128 * (4 * t.val + 1) + (k.val - 128) = 512 * t.val + k.val; omega
  · rw [pay18_apply]
    refine Finset.sum_congr rfl fun k' _ => ?_
    rw [blk2_apply, V_arg0, hw]
    refine congrArg₂ (fun (x y : EReal) => x * y) (congrArg (aV m c) (ix2_congr ?_ rfl)) rfl
    rw [hc]; show 128 * (4 * t.val + 2) + (k.val - 256) = 512 * t.val + k.val; omega
  · rw [pay2_apply]
    refine Finset.sum_congr rfl fun k' _ => ?_
    rw [blk3_apply, V_arg0, hw]
    refine congrArg₂ (fun (x y : EReal) => x * y) (congrArg (aV m c) (ix2_congr ?_ rfl)) rfl
    rw [hc]; show 128 * (4 * t.val + 3) + (k.val - 384) = 512 * t.val + k.val; omega

theorem part_lo (t : Fin cfg0.N) (w : Vec Ideal S256x2048 .bf16) (hw : ∀ y, w y = aW m c y) (r : Fin 1024) (j : Fin 256) :
    k0_pay5 (F := Ideal) (k0_pay14 (F := Ideal) (iblk m c 0 t) w) (k0_pay16 (F := Ideal) (iblk m c 1 t) w) (k0_pay18 (F := Ideal) (iblk m c 2 t) w) (iblk m c 3 t) w (iblk m c 4 t) (ix2 r j)
      = Cert.Gin.part (aV m c) (aA m c) (aW m c) t.val ⟨r.val, by have := r.isLt; omega⟩ j := by
  rw [pay5_apply]
  unfold Cert.Gin.part
  refine Finset.sum_congr rfl fun k _ => ?_
  rw [strip4_apply m c t w hw, blk4_apply, V_arg1]
  refine congrArg₂ (fun (x y : EReal) => x * y) (congrArg (aA m c) (ix2_congr ?_ ?_)) rfl
  · show 1024 * 0 + r.val = r.val; omega
  · exact (col_val t k).symm

theorem part_hi (t : Fin cfg0.N) (w : Vec Ideal S256x2048 .bf16) (hw : ∀ y, w y = aW m c y) (r : Fin 1024) (j : Fin 256) :
    k0_pay6 (F := Ideal) (k0_pay14 (F := Ideal) (iblk m c 0 t) w) (k0_pay16 (F := Ideal) (iblk m c 1 t) w) (k0_pay18 (F := Ideal) (iblk m c 2 t) w) (iblk m c 3 t) w (iblk m c 5 t) (ix2 r j)
      = Cert.Gin.part (aV m c) (aA m c) (aW m c) t.val ⟨1024 + r.val, by have := r.isLt; omega⟩ j := by
  rw [pay6_apply]
  unfold Cert.Gin.part
  refine Finset.sum_congr rfl fun k _ => ?_
  rw [strip4_apply m c t w hw, blk5_apply, V_arg1]
  refine congrArg₂ (fun (x y : EReal) => x * y) (congrArg (aA m c) (ix2_congr ?_ ?_)) rfl
  · show 1024 * 1 + r.val = 1024 + r.val; omega
  · exact (col_val t k).symm

end Cert.KernelIdeal.Hand

end
-- ==== Proof.KI.ValueW.lean ====
import proofs.«163186_g6957847020190_cont_9to1_m_143_23_alg».proof.Proof.KI.State
import proofs.«163186_g6957847020190_cont_9to1_m_143_23_alg».proof.Proof.KI.Blocks
import proofs.«163186_g6957847020190_cont_9to1_m_143_23_alg».proof.Proof.KI.PayloadsA
import proofs.«163186_g6957847020190_cont_9to1_m_143_23_alg».proof.Proof.Spec
import Idealize.ShloMosaic.Lib.Tactic
import Idealize.ShloMosaic.Lib.Ring

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

theorem off00 : (![0, 0] : Fin 2 → Nat) = fun _ => 0 := funext fun a => by fin_cases a <;> rfl

theorem Wc_eq (m : (ℓ : Loc nD τ sig) → Buf (Elt Ideal) ℓ) (c : Dev nD) :
    Wc (F := Ideal) m c = (V m c main_arg3 : Vec Ideal S256x2048 .f32) := by
  unfold Wc
  rw [View.read_writes_eq_canon _ _ _ (fun y => View.cover_of_tiledL _ S256x2048.size (by sl_kernel_rfl) y)]
  unfold firstAt runFirst
  dsimp only
  sl_unfold_words
  rw [View.canon_unit_zero off00]
  simp only [View.readAt_eq_ld, Memref.IsWhole.read_unread, View.ld_unit_zero (S := S256x2048) off00]
  rw [pay13_eq, blk7_eq]

end Cert.KernelIdeal.Hand
-- ==== Proof.KI.ValueStrips.lean ====
import proofs.«163186_g6957847020190_cont_9to1_m_143_23_alg».proof.Proof.KI.State
import proofs.«163186_g6957847020190_cont_9to1_m_143_23_alg».proof.Proof.KI.Blocks
import proofs.«163186_g6957847020190_cont_9to1_m_143_23_alg».proof.Proof.KI.PayloadsA
import proofs.«163186_g6957847020190_cont_9to1_m_143_23_alg».proof.Proof.KI.ValueW
import proofs.«163186_g6957847020190_cont_9to1_m_143_23_alg».proof.Proof.Spec
import Idealize.ShloMosaic.Lib.Tactic
import Idealize.ShloMosaic.Lib.Ring

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-- A 128-row strip whose entries are row-by-row products with W1 agrees with v·W1ᵀ where it is stored. -/
theorem strip_agree (m0 : S2048x2048.Idx → EReal) (m3 : S256x2048.Idx → EReal) (f : S128x256.Idx → EReal)
    (X : S128x2048.Idx → EReal) (W : S256x2048.Idx → EReal) (off : Fin 2 → ℕ)
    (inb : ∀ a, off a + S128x256.size a ≤ S2048x256.size a) (R : ℕ) (hoff : off = ![R, 0])
    (hf : ∀ (p : Fin 128) (q : Fin 256), f (ix2 p q) = ∑ k : Fin 2048, X (ix2 p k) * W (ix2 q k))
    (hX : ∀ (p : Fin 128) (k : Fin 2048) (r : Fin 2048), r.val = R + p.val → X (ix2 p k) = m0 (ix2 r k)) (hW : W = m3)
    (x : S128x256.Idx) :
    f x = Cert.Gin.vW m0 m3 ((Rect.unit (s := S2048x256) off S128x256.size inb).emb x 0)
      ((Rect.unit (s := S2048x256) off S128x256.size inb).emb x 1) := by
  obtain ⟨p, q, rfl⟩ : ∃ (p : Fin 128) (q : Fin 256), x = ix2 p q := ⟨x 0, x 1, eq_ix2 x⟩
  subst hoff hW
  rw [hf]
  unfold Cert.Gin.vW
  refine Finset.sum_congr rfl fun k _ => ?_
  rw [hX p k ((Rect.unit (s := S2048x256) ![R, 0] S128x256.size inb).emb (ix2 p q) 0) (by
    show R + 1 * p.val = R + p.val
    omega)]
  refine congrArg (fun j => _ * W (ix2 j k)) (Fin.ext ?_)
  show q.val = 0 + 1 * q.val
  omega

variable {c : Dev nD} {i : grid0.Coords} {B : Ops}

theorem stripsLater_agree (h1 : ¬condFirst i) (h3 : condLater i) (h4 : ¬condLast i) (x1 x2 x3 x4 : Vec Ideal S128x2048 .f32) (x5 x6 : Vec Ideal S1024x512 .f32) (x7 : Vec Ideal S1x1 .f32) (x8 : Vec Ideal S256x2048 .f32) (x9 x10 x11 : Vec Ideal S1x256 .f32) (x12 : Vec Ideal S256x256 .f32) (x13 x14 x15 : Vec Ideal S1x256 .f32)
    (x18 : Vec Ideal S2048x256 .f32) (x19 : Vec Ideal S256x2048 .bf16)
    (m0 : S2048x2048.Idx → EReal) (m3 : S256x2048.Idx → EReal) (R : ℕ)
    (ho0 : k0_off1 i 0#32 = ![R + 0, 0]) (ho1 : k0_off1 i 128#32 = ![R + 128, 0])
    (ho2 : k0_off1 i 256#32 = ![R + 256, 0]) (ho3 : k0_off1 i 384#32 = ![R + 384, 0])
    (hX1 : ∀ (p : Fin 128) (k : Fin 2048) (r : Fin 2048), r.val = R + 0 + p.val → x1 (ix2 p k) = m0 (ix2 r k))
    (hX2 : ∀ (p : Fin 128) (k : Fin 2048) (r : Fin 2048), r.val = R + 128 + p.val → x2 (ix2 p k) = m0 (ix2 r k))
    (hX3 : ∀ (p : Fin 128) (k : Fin 2048) (r : Fin 2048), r.val = R + 256 + p.val → x3 (ix2 p k) = m0 (ix2 r k))
    (hX4 : ∀ (p : Fin 128) (k : Fin 2048) (r : Fin 2048), r.val = R + 384 + p.val → x4 (ix2 p k) = m0 (ix2 r k))
    (hW : x19 = m3) :
    ∀ pc ∈ (runLater (F := Ideal) c i B h1 h3 h4 x1 x2 x3 x4 x5 x6 x7 x8 x9 x10 x11 x12 x13 x14 x15 x18 x19).1,
      ∀ x, pc.2 x = Cert.Gin.vW m0 m3 (pc.1.emb x 0) (pc.1.emb x 1) := by
  unfold runLater
  dsimp only
  sl_unfold_words
  simp only [View.readAt_eq_ld, Memref.IsWhole.read_unread, View.ld_unit_zero (S := S128x2048) off00,
    View.ld_unit_zero (S := S256x2048) off00]
  intro pc hpc
  simp only [List.mem_cons, List.mem_singleton, List.not_mem_nil, or_false] at hpc
  rcases hpc with rfl | rfl | rfl | rfl
  · dsimp only
    exact strip_agree m0 m3 _ x4 x19 _ _ (R + 384) ho3
      (fun p q => (congrFun (pay3_eq x4 x19) _).trans (pay2_apply x4 x19 p q)) hX4 hW
  · dsimp only
    exact strip_agree m0 m3 _ x3 x19 _ _ (R + 256) ho2
      (fun p q => (congrFun (pay1_eq _) _).trans (pay18_apply x3 x19 p q)) hX3 hW
  · dsimp only
    exact strip_agree m0 m3 _ x2 x19 _ _ (R + 128) ho1
      (fun p q => (congrFun (pay17_eq x2 x19) _).trans (pay16_apply x2 x19 p q)) hX2 hW
  · dsimp only
    exact strip_agree m0 m3 _ x1 x19 _ _ (R + 0) ho0
      (fun p q => (congrFun (pay15_eq x1 x19) _).trans (pay14_apply x1 x19 p q)) hX1 hW

theorem stripsLast_agree (h1 : ¬condFirst i) (h3 : condLater i) (h4 : condLast i) (x1 x2 x3 x4 : Vec Ideal S128x2048 .f32) (x5 x6 : Vec Ideal S1024x512 .f32) (x7 : Vec Ideal S1x1 .f32) (x8 : Vec Ideal S256x2048 .f32) (x9 x10 x11 : Vec Ideal S1x256 .f32) (x12 : Vec Ideal S256x256 .f32) (x13 x14 x15 : Vec Ideal S1x256 .f32)
    (x17 : Vec Ideal S2048x256 .bf16) (x18 : Vec Ideal S2048x256 .f32) (x19 : Vec Ideal S256x2048 .bf16)
    (m0 : S2048x2048.Idx → EReal) (m3 : S256x2048.Idx → EReal) (R : ℕ)
    (ho0 : k0_off1 i 0#32 = ![R + 0, 0]) (ho1 : k0_off1 i 128#32 = ![R + 128, 0])
    (ho2 : k0_off1 i 256#32 = ![R + 256, 0]) (ho3 : k0_off1 i 384#32 = ![R + 384, 0])
    (hX1 : ∀ (p : Fin 128) (k : Fin 2048) (r : Fin 2048), r.val = R + 0 + p.val → x1 (ix2 p k) = m0 (ix2 r k))
    (hX2 : ∀ (p : Fin 128) (k : Fin 2048) (r : Fin 2048), r.val = R + 128 + p.val → x2 (ix2 p k) = m0 (ix2 r k))
    (hX3 : ∀ (p : Fin 128) (k : Fin 2048) (r : Fin 2048), r.val = R + 256 + p.val → x3 (ix2 p k) = m0 (ix2 r k))
    (hX4 : ∀ (p : Fin 128) (k : Fin 2048) (r : Fin 2048), r.val = R + 384 + p.val → x4 (ix2 p k) = m0 (ix2 r k))
    (hW : x19 = m3) :
    ∀ pc ∈ (runLast (F := Ideal) c i B h1 h3 h4 x1 x2 x3 x4 x5 x6 x7 x8 x9 x10 x11 x12 x13 x14 x15 x17 x18 x19).2.1,
      ∀ x, pc.2 x = Cert.Gin.vW m0 m3 (pc.1.emb x 0) (pc.1.emb x 1) := by
  unfold runLast
  dsimp only
  sl_unfold_words
  simp only [View.readAt_eq_ld, Memref.IsWhole.read_unread, View.ld_unit_zero (S := S128x2048) off00,
    View.ld_unit_zero (S := S256x2048) off00]
  intro pc hpc
  simp only [List.mem_cons, List.mem_singleton, List.not_mem_nil, or_false] at hpc
  rcases hpc with rfl | rfl | rfl | rfl
  · dsimp only
    exact strip_agree m0 m3 _ x4 x19 _ _ (R + 384) ho3
      (fun p q => (congrFun (pay3_eq x4 x19) _).trans (pay2_apply x4 x19 p q)) hX4 hW
  · dsimp only
    exact strip_agree m0 m3 _ x3 x19 _ _ (R + 256) ho2
      (fun p q => (congrFun (pay1_eq _) _).trans (pay18_apply x3 x19 p q)) hX3 hW
  · dsimp only
    exact strip_agree m0 m3 _ x2 x19 _ _ (R + 128) ho1
      (fun p q => (congrFun (pay17_eq x2 x19) _).trans (pay16_apply x2 x19 p q)) hX2 hW
  · dsimp only
    exact strip_agree m0 m3 _ x1 x19 _ _ (R + 0) ho0
      (fun p q => (congrFun (pay15_eq x1 x19) _).trans (pay14_apply x1 x19 p q)) hX1 hW

theorem stripsFirst_agree (h1 : condFirst i) (h3 : ¬condLater i) (h4 : ¬condLast i) (x1 x2 x3 x4 : Vec Ideal S128x2048 .f32) (x5 x6 : Vec Ideal S1024x512 .f32) (x7 : Vec Ideal S1x1 .f32) (x8 : Vec Ideal S256x2048 .f32) (x9 x10 x11 : Vec Ideal S1x256 .f32) (x12 : Vec Ideal S256x256 .f32) (x13 x14 x15 : Vec Ideal S1x256 .f32)
    (m0 : S2048x2048.Idx → EReal) (m3 : S256x2048.Idx → EReal) (R : ℕ)
    (ho0 : k0_off1 i 0#32 = ![R + 0, 0]) (ho1 : k0_off1 i 128#32 = ![R + 128, 0])
    (ho2 : k0_off1 i 256#32 = ![R + 256, 0]) (ho3 : k0_off1 i 384#32 = ![R + 384, 0])
    (hX1 : ∀ (p : Fin 128) (k : Fin 2048) (r : Fin 2048), r.val = R + 0 + p.val → x1 (ix2 p k) = m0 (ix2 r k))
    (hX2 : ∀ (p : Fin 128) (k : Fin 2048) (r : Fin 2048), r.val = R + 128 + p.val → x2 (ix2 p k) = m0 (ix2 r k))
    (hX3 : ∀ (p : Fin 128) (k : Fin 2048) (r : Fin 2048), r.val = R + 256 + p.val → x3 (ix2 p k) = m0 (ix2 r k))
    (hX4 : ∀ (p : Fin 128) (k : Fin 2048) (r : Fin 2048), r.val = R + 384 + p.val → x4 (ix2 p k) = m0 (ix2 r k))
    (hW : (x8 : S256x2048.Idx → EReal) = m3) :
    ∀ pc ∈ (runFirst (F := Ideal) c i B h1 h3 h4 x1 x2 x3 x4 x5 x6 x7 x8 x9 x10 x11 x12 x13 x14 x15).1,
      ∀ x, pc.2 x = Cert.Gin.vW m0 m3 (pc.1.emb x 0) (pc.1.emb x 1) := by
  unfold runFirst
  dsimp only
  sl_unfold_words
  simp only [View.readCov_unit_zero (S := S256x2048) _ off00, View.readAt_eq_ld, Memref.IsWhole.read_unread,
    View.ld_unit_zero (S := S128x2048) off00, View.ld_unit_zero (S := S256x2048) off00, pay13_eq]
  intro pc hpc
  simp only [List.mem_cons, List.mem_singleton, List.not_mem_nil, or_false] at hpc
  rcases hpc with rfl | rfl | rfl | rfl
  · dsimp only
    exact strip_agree m0 m3 _ x4 x8 _ _ (R + 384) ho3
      (fun p q => (congrFun (pay3_eq x4 x8) _).trans (pay2_apply x4 x8 p q)) hX4 hW
  · dsimp only
    exact strip_agree m0 m3 _ x3 x8 _ _ (R + 256) ho2
      (fun p q => (congrFun (pay1_eq _) _).trans (pay18_apply x3 x8 p q)) hX3 hW
  · dsimp only
    exact strip_agree m0 m3 _ x2 x8 _ _ (R + 128) ho1
      (fun p q => (congrFun (pay17_eq x2 x8) _).trans (pay16_apply x2 x8 p q)) hX2 hW
  · dsimp only
    exact strip_agree m0 m3 _ x1 x8 _ _ (R + 0) ho0
      (fun p q => (congrFun (pay15_eq x1 x8) _).trans (pay14_apply x1 x8 p q)) hX1 hW

theorem off_facts : ∀ t : Fin cfg0.N,
    k0_off1 (grid0.coords t) 0#32 = ![512 * t.val + 0, 0] ∧ k0_off1 (grid0.coords t) 128#32 = ![512 * t.val + 128, 0]
    ∧ k0_off1 (grid0.coords t) 256#32 = ![512 * t.val + 256, 0] ∧ k0_off1 (grid0.coords t) 384#32 = ![512 * t.val + 384, 0] :=
  (by decide +kernel : ∀ t : Fin grid0.N, _)

theorem rows0 (m : (ℓ : Loc nD τ sig) → Buf (Elt Ideal) ℓ) (c : Dev nD) (t : Fin cfg0.N) (p : Fin 128) (k : Fin 2048)
    (r : Fin 2048) (hr : r.val = 512 * t.val + 0 + p.val) :
    (iblk m c 0 t : Vec Ideal S128x2048 .f32) (ix2 p k)
      = (m ((c : Thread nD τ).loc main_arg0) : Vec Ideal S2048x2048 .f32) (ix2 r k) := by
  refine (blk0_apply m c t p k).trans ?_
  rw [V_arg0]
  exact congrArg (fun j => m ((c : Thread nD τ).loc main_arg0) (ix2 j k)) (Fin.ext (by
    rw [hr]
    show 128 * (4 * t.val + 0) + p.val = _
    omega))

theorem rows1 (m : (ℓ : Loc nD τ sig) → Buf (Elt Ideal) ℓ) (c : Dev nD) (t : Fin cfg0.N) (p : Fin 128) (k : Fin 2048)
    (r : Fin 2048) (hr : r.val = 512 * t.val + 128 + p.val) :
    (iblk m c 1 t : Vec Ideal S128x2048 .f32) (ix2 p k)
      = (m ((c : Thread nD τ).loc main_arg0) : Vec Ideal S2048x2048 .f32) (ix2 r k) := by
  refine (blk1_apply m c t p k).trans ?_
  rw [V_arg0]
  exact congrArg (fun j => m ((c : Thread nD τ).loc main_arg0) (ix2 j k)) (Fin.ext (by
    rw [hr]
    show 128 * (4 * t.val + 1) + p.val = _
    omega))

theorem rows2 (m : (ℓ : Loc nD τ sig) → Buf (Elt Ideal) ℓ) (c : Dev nD) (t : Fin cfg0.N) (p : Fin 128) (k : Fin 2048)
    (r : Fin 2048) (hr : r.val = 512 * t.val + 256 + p.val) :
    (iblk m c 2 t : Vec Ideal S128x2048 .f32) (ix2 p k)
      = (m ((c : Thread nD τ).loc main_arg0) : Vec Ideal S2048x2048 .f32) (ix2 r k) := by
  refine (blk2_apply m c t p k).trans ?_
  rw [V_arg0]
  exact congrArg (fun j => m ((c : Thread nD τ).loc main_arg0) (ix2 j k)) (Fin.ext (by
    rw [hr]
    show 128 * (4 * t.val + 2) + p.val = _
    omega))

theorem rows3 (m : (ℓ : Loc nD τ sig) → Buf (Elt Ideal) ℓ) (c : Dev nD) (t : Fin cfg0.N) (p : Fin 128) (k : Fin 2048)
    (r : Fin 2048) (hr : r.val = 512 * t.val + 384 + p.val) :
    (iblk m c 3 t : Vec Ideal S128x2048 .f32) (ix2 p k)
      = (m ((c : Thread nD τ).loc main_arg0) : Vec Ideal S2048x2048 .f32) (ix2 r k) := by
  refine (blk3_apply m c t p k).trans ?_
  rw [V_arg0]
  exact congrArg (fun j => m ((c : Thread nD τ).loc main_arg0) (ix2 j k)) (Fin.ext (by
    rw [hr]
    show 128 * (4 * t.val + 3) + p.val = _
    omega))

abbrev vWG (m : (ℓ : Loc nD τ sig) → Buf (Elt Ideal) ℓ) (c : Dev nD) : S2048x256.Idx → EReal :=
  fun y => Cert.Gin.vW (m ((c : Thread nD τ).loc main_arg0)) (m ((c : Thread nD τ).loc main_arg3)) (y 0) (y 1)

theorem mem_snd_dite {α β : Type} {P : Prop} [Decidable P] (a : P → α × List β) (b : ¬P → α × List β) (p : β)
    (hp : p ∈ (dite P a b).2) : (∃ h : P, p ∈ (a h).2) ∨ (∃ h : ¬P, p ∈ (b h).2) := by
  by_cases h : P
  · exact .inl ⟨h, by rwa [dif_pos h] at hp⟩
  · exact .inr ⟨h, by rwa [dif_neg h] at hp⟩

/-- By induction on the point: every strip stored so far agrees with v·W1ᵀ where it lies. -/
theorem strips_agree (m : (ℓ : Loc nD τ sig) → Buf (Elt Ideal) ℓ) (c : Dev nD) (n : ℕ) (hn : n < cfg0.N) :
    ∀ p ∈ (accAt (F := Ideal) m c n hn).2, ∀ x, p.2 x = vWG m c (p.1.emb x) := by
  induction n with
  | zero =>
    obtain ⟨o0, o1, o2, o3⟩ := off_facts ⟨0, hn⟩
    intro p hp
    exact stripsFirst_agree (c := c) (i := grid0.coords (⟨0, hn⟩ : Fin cfg0.N)) (B := opsAt (⟨0, hn⟩ : Fin cfg0.N))
      ((hcondFirst (⟨0, hn⟩ : Fin cfg0.N)).mpr rfl) (fun h => (hcondLater (⟨0, hn⟩ : Fin cfg0.N)).mp h rfl)
      (fun h => absurd ((hcondLast (⟨0, hn⟩ : Fin cfg0.N)).mp h) (by decide : ¬((0 : ℕ) = 3)))
      (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) (iblk m c 4 (⟨0, hn⟩ : Fin cfg0.N)) (iblk m c 5 (⟨0, hn⟩ : Fin cfg0.N)) (iblk m c 6 (⟨0, hn⟩ : Fin cfg0.N)) (iblk m c 7 (⟨0, hn⟩ : Fin cfg0.N)) (iblk m c 8 (⟨0, hn⟩ : Fin cfg0.N)) (iblk m c 9 (⟨0, hn⟩ : Fin cfg0.N)) (iblk m c 10 (⟨0, hn⟩ : Fin cfg0.N)) (iblk m c 11 (⟨0, hn⟩ : Fin cfg0.N)) (iblk m c 12 (⟨0, hn⟩ : Fin cfg0.N)) (iblk m c 13 (⟨0, hn⟩ : Fin cfg0.N)) (iblk m c 14 (⟨0, hn⟩ : Fin cfg0.N))
      _ _ (512 * (⟨0, hn⟩ : Fin cfg0.N).val) o0 o1 o2 o3
      (rows0 m c ⟨0, hn⟩) (rows1 m c ⟨0, hn⟩) (rows2 m c ⟨0, hn⟩) (rows3 m c ⟨0, hn⟩)
      ((blk7_eq m c ⟨0, hn⟩).trans (V_arg3 m c)) p hp
  | succ n ih =>
    obtain ⟨o0, o1, o2, o3⟩ := off_facts ⟨n + 1, hn⟩
    have hW : Wc (F := Ideal) m c = m ((c : Thread nD τ).loc main_arg3) := (Wc_eq m c).trans (V_arg3 m c)
    intro p hp
    rcases mem_snd_dite _ _ p hp with ⟨h3, hp⟩ | ⟨h3, hp⟩
    · rcases List.mem_append.mp hp with hp | hp
      · exact stripsLast_agree (c := c) (i := grid0.coords (⟨n + 1, hn⟩ : Fin cfg0.N)) (B := opsAt (⟨n + 1, hn⟩ : Fin cfg0.N))
          (fun h => (Nat.succ_ne_zero n) ((hcondFirst (⟨n + 1, hn⟩ : Fin cfg0.N)).mp h)) ((hcondLater (⟨n + 1, hn⟩ : Fin cfg0.N)).mpr (Nat.succ_ne_zero n))
          ((hcondLast (⟨n + 1, hn⟩ : Fin cfg0.N)).mpr h3)
          (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (iblk m c 6 (⟨n + 1, hn⟩ : Fin cfg0.N)) (iblk m c 7 (⟨n + 1, hn⟩ : Fin cfg0.N)) (iblk m c 8 (⟨n + 1, hn⟩ : Fin cfg0.N)) (iblk m c 9 (⟨n + 1, hn⟩ : Fin cfg0.N)) (iblk m c 10 (⟨n + 1, hn⟩ : Fin cfg0.N)) (iblk m c 11 (⟨n + 1, hn⟩ : Fin cfg0.N)) (iblk m c 12 (⟨n + 1, hn⟩ : Fin cfg0.N)) (iblk m c 13 (⟨n + 1, hn⟩ : Fin cfg0.N)) (iblk m c 14 (⟨n + 1, hn⟩ : Fin cfg0.N))
          (scU.view.read (Elt Ideal) (scU.view.writes (Elt Ideal) scU.view.junk (accAt m c n (Nat.lt_of_succ_lt hn)).2))
          (accAt m c n (Nat.lt_of_succ_lt hn)).1 (Wc m c)
          _ _ (512 * (⟨n + 1, hn⟩ : Fin cfg0.N).val) o0 o1 o2 o3
          (rows0 m c ⟨n + 1, hn⟩) (rows1 m c ⟨n + 1, hn⟩) (rows2 m c ⟨n + 1, hn⟩) (rows3 m c ⟨n + 1, hn⟩) hW p hp
      · exact ih _ p hp
    · rcases List.mem_append.mp hp with hp | hp
      · exact stripsLater_agree (c := c) (i := grid0.coords (⟨n + 1, hn⟩ : Fin cfg0.N)) (B := opsAt (⟨n + 1, hn⟩ : Fin cfg0.N))
          (fun h => (Nat.succ_ne_zero n) ((hcondFirst (⟨n + 1, hn⟩ : Fin cfg0.N)).mp h)) ((hcondLater (⟨n + 1, hn⟩ : Fin cfg0.N)).mpr (Nat.succ_ne_zero n))
          (fun h => h3 ((hcondLast (⟨n + 1, hn⟩ : Fin cfg0.N)).mp h))
          (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (iblk m c 6 (⟨n + 1, hn⟩ : Fin cfg0.N)) (iblk m c 7 (⟨n + 1, hn⟩ : Fin cfg0.N)) (iblk m c 8 (⟨n + 1, hn⟩ : Fin cfg0.N)) (iblk m c 9 (⟨n + 1, hn⟩ : Fin cfg0.N)) (iblk m c 10 (⟨n + 1, hn⟩ : Fin cfg0.N)) (iblk m c 11 (⟨n + 1, hn⟩ : Fin cfg0.N)) (iblk m c 12 (⟨n + 1, hn⟩ : Fin cfg0.N)) (iblk m c 13 (⟨n + 1, hn⟩ : Fin cfg0.N)) (iblk m c 14 (⟨n + 1, hn⟩ : Fin cfg0.N))
          (accAt m c n (Nat.lt_of_succ_lt hn)).1 (Wc m c)
          _ _ (512 * (⟨n + 1, hn⟩ : Fin cfg0.N).val) o0 o1 o2 o3
          (rows0 m c ⟨n + 1, hn⟩) (rows1 m c ⟨n + 1, hn⟩) (rows2 m c ⟨n + 1, hn⟩) (rows3 m c ⟨n + 1, hn⟩) hW p hp
      · exact ih _ p hp

theorem lt3 : 3 < cfg0.N := by rw [N4]; decide

/-- The sixteen strips of the four points tile the 2048 rows. -/
theorem strips_cover (m : (ℓ : Loc nD τ sig) → Buf (Elt Ideal) ℓ) (c : Dev nD) :
    ∀ y : S2048x256.Idx, ∃ p ∈ (accAt (F := Ideal) m c 3 lt3).2, y ∈ p.1.set :=
  View.cover_of_tiledL _ S128x256.size (by sl_kernel_rfl)

end Cert.KernelIdeal.Hand
-- ==== Proof.KI.PayloadsB.lean ====
import proofs.«163186_g6957847020190_cont_9to1_m_143_23_alg».proof.Proof.Gen.KernelIdeal.Skeleton
import proofs.«163186_g6957847020190_cont_9to1_m_143_23_alg».proof.Proof.Spec
import proofs.«163186_g6957847020190_cont_9to1_m_143_23_alg».proof.Proof.LibTransposedRhsDot
import proofs.«163186_g6957847020190_cont_9to1_m_143_23_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

theorem rowBroadcast_apply (v : FVec Ideal S1x256 .f32) (r : Fin 2048) (j : Fin 256) :
    broadcastTo S2048x256 (shapeCast S1x256 v shapeCasts_S1x256_S1x256) broadcasts_S1x256_S2048x256 (ix2 r j)
      = v (ix2 0 j) := by
  rw [shapeCast_self]
  exact broadcastTo_1b_ab_apply v _ r j

theorem rowSumCol_apply (X : FVec Ideal S2048x256 .f32) (r : Fin 2048) (z : Fin 1) :
    shapeCast S2048x1 (multiReduction .add [1] S2048 X 0x00000000#32 reduces_S2048x256_S2048 (.inl rfl) rfl)
        shapeCasts_S2048_S2048x1 (ix2 r z)
      = ∑ k : Fin 256, X (ix2 r k) :=
  (Cert.Lib.Keepdims.shapeCast_a_a1_apply _ _ r z).trans (Cert.Lib.Keepdims.rowSum_apply X _ _ _ _ r)

theorem colBroadcast_apply (c : FVec Ideal S2048x1 .f32) (r : Fin 2048) (j : Fin 256) :
    broadcastTo S2048x256 c broadcasts_S2048x1_S2048x256 (ix2 r j) = c (ix2 r 0) :=
  Cert.Lib.Keepdims.broadcastTo_a1_ab_apply c _ r j

theorem extract00 (e : FVec Ideal S1x1 .f32) : extractAt ![0, 0] e inpos_S1x1_p0_0 = e (ix2 0 0) :=
  congrArg e (funext fun a => by
    match a with
    | ⟨0, _⟩ => rfl
    | ⟨1, _⟩ => rfl)

theorem rsqrt_apply {s : Shape} {φ : FTy} (a : FVec Ideal s φ) (i : s.Idx) : rsqrt a i = Ideal.rsqrt (a i) := rfl

theorem dense_apply (y : FVec Ideal S2048x256 .bf16) (W : FVec Ideal S256x256 .bf16) (p : Fin 2048) (q : Fin 256) :
    matmul dot_S2048x256_S256x256_S2048x256_1_1_0_0_n_n none y W (constant (F := Ideal) S2048x256 .f32 0x00000000#32) (ix2 p q)
      = ∑ k : Fin 256, y (ix2 p k) * W (ix2 q k) :=
  Cert.Lib.TransposedRhsDot.matmul_zero_apply 2048 256 256 none y W p q

theorem pay12_apply (H : Vec Ideal S2048x256 .f32) (e : Vec Ideal S1x1 .f32) (U : Vec Ideal S2048x256 .bf16)
    (b1 g1 be1 : Vec Ideal S1x256 .f32) (r : Fin 2048) (j : Fin 256) :
    k0_pay12 (F := Ideal) H e U b1 g1 be1 (ix2 r j)
      = Cert.Gin.lnReluK (fun k => (H (ix2 r k) + e (ix2 0 0) * U (ix2 r k)) + b1 (ix2 0 k))
          (fun k => g1 (ix2 0 k)) (fun k => be1 (ix2 0 k)) j := by
  unfold k0_pay12
  simp only [truncf_apply, maximumf_apply, addf_apply, mulf_apply, subf_apply, divf_apply, rsqrt_apply, broadcast_apply,
    extf_apply, rowBroadcast_apply, colBroadcast_apply, extract00]
  rw [rowSumCol_apply]
  simp only [truncf_apply, maximumf_apply, addf_apply, mulf_apply, subf_apply, divf_apply, rsqrt_apply, broadcast_apply,
    extf_apply, rowBroadcast_apply, colBroadcast_apply, extract00]
  rw [rowSumCol_apply]
  simp only [truncf_apply, maximumf_apply, addf_apply, mulf_apply, subf_apply, divf_apply, rsqrt_apply, broadcast_apply,
    extf_apply, rowBroadcast_apply, colBroadcast_apply, extract00]
  rw [rowSumCol_apply]
  simp only [truncf_apply, maximumf_apply, addf_apply, mulf_apply, subf_apply, divf_apply, rsqrt_apply, broadcast_apply,
    extf_apply, rowBroadcast_apply, colBroadcast_apply, extract00]
  rfl

theorem pay11_apply (y : FVec Ideal S2048x256 .bf16) (W2 : Vec Ideal S256x256 .f32) (b2 g2 be2 : Vec Ideal S1x256 .f32)
    (r : Fin 2048) (j : Fin 256) :
    k0_pay11 (F := Ideal) y W2 b2 g2 be2 (ix2 r j)
      = Cert.Gin.lnReluK (fun k => (∑ k' : Fin 256, y (ix2 r k') * W2 (ix2 k k')) + b2 (ix2 0 k))
          (fun k => g2 (ix2 0 k)) (fun k => be2 (ix2 0 k)) j := by
  unfold k0_pay11
  simp only [truncf_apply, maximumf_apply, addf_apply, mulf_apply, subf_apply, divf_apply, rsqrt_apply, broadcast_apply,
    rowBroadcast_apply, colBroadcast_apply, dense_apply]
  rw [rowSumCol_apply]
  simp only [truncf_apply, maximumf_apply, addf_apply, mulf_apply, subf_apply, divf_apply, rsqrt_apply, broadcast_apply,
    rowBroadcast_apply, colBroadcast_apply, dense_apply]
  rw [rowSumCol_apply]
  simp only [truncf_apply, maximumf_apply, addf_apply, mulf_apply, subf_apply, divf_apply, rsqrt_apply, broadcast_apply,
    rowBroadcast_apply, colBroadcast_apply, dense_apply]
  rw [rowSumCol_apply]
  simp only [truncf_apply, maximumf_apply, addf_apply, mulf_apply, subf_apply, divf_apply, rsqrt_apply, broadcast_apply,
    rowBroadcast_apply, colBroadcast_apply, dense_apply]
  rfl

end Cert.KernelIdeal.Hand
-- ==== Proof.Algebra.lean ====
import proofs.«163186_g6957847020190_cont_9to1_m_143_23_alg».proof.Proof.Spec
import Mathlib.Tactic.NormNum
import Mathlib.Tactic.Positivity
import Mathlib.Tactic.Ring
import Mathlib.Algebra.BigOperators.Fin
import Mathlib.Logic.Equiv.Fin.Basic

noncomputable section

namespace Cert.Gin

open Idealize.ShloMosaic Idealize.ShloMosaic.ValueIdx

theorem zeroW_eq : zeroW = 0 := Ideal.ofBits_zero_f32

theorem c256_eq : c256 = ((256 : ℝ) : EReal) := by
  simp [c256, Ideal.ofBits, Ideal.ieee, -EReal.coe_mul]
  norm_num

theorem epsLN_pos : ∃ r : ℝ, 0 < r ∧ epsLN = (r : EReal) := by
  refine ⟨(10995116 : ℝ) * (2 : ℝ) ^ (-40 : Int), by positivity, ?_⟩
  simp [epsLN, Ideal.ofBits, Ideal.ieee, -EReal.coe_mul]

theorem mul_self_nonneg_ereal (y : EReal) : 0 ≤ y * y := by
  induction y using EReal.rec with
  | bot => simp
  | coe r => exact_mod_cast mul_self_nonneg r
  | top => simp

/-- A variance is a mean of squares, so adding the positive offset makes it positive. -/
theorem var_add_eps_pos (x : Fin 256 → EReal) : 0 < var x + epsLN := by
  obtain ⟨e, he, hE⟩ := epsLN_pos
  have hS : 0 ≤ ∑ k, (x k - mean x) * (x k - mean x) := Finset.sum_nonneg fun k _ => mul_self_nonneg_ereal _
  have hv : 0 ≤ var x := by
    rw [var, c256_eq, Ideal.div_coe (by norm_num)]
    exact EReal.mul_nonneg hS (by exact_mod_cast (by norm_num : (0 : ℝ) ≤ 1 / 256))
  rw [hE]
  exact Right.add_pos_of_nonneg_of_pos hv (by exact_mod_cast he)

/-- Multiplying by the reciprocal square root of a positive extended real is dividing by its square root. -/
theorem mul_rsqrt_eq_div_sqrt (y z : EReal) (hz : 0 < z) : y * Ideal.rsqrt z = Ideal.div y (Ideal.sqrt z) := by
  induction z using EReal.rec with
  | bot => exact absurd hz (by simp)
  | coe r =>
    have hr : 0 < r := by exact_mod_cast hz
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]
  | top =>
    rw [Ideal.rsqrt_top, Ideal.sqrt_top, Ideal.div, if_neg (by simp), EReal.inv_top]

theorem lnReluK_eq (x g b : Fin 256 → EReal) (j : Fin 256) : lnReluK x g b j = lnRelu x g b j := by
  rw [lnReluK, lnRelu, mul_rsqrt_eq_div_sqrt _ _ (var_add_eps_pos x)]

theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem col_eq (t : Fin 4) (q : Fin 512) : col t.val q = (finProdFinEquiv (t, q) : Fin (4 * 512)) := by
  apply Fin.ext
  have := t.isLt; have := q.isLt
  simp only [col, finProdFinEquiv_apply_val]
  omega

/-- A sum over 2048 columns is the sum over four blocks of 512. -/
theorem sum_blocks (F : Fin 2048 → ℝ) :
    ((∑ q : Fin 512, F (col 0 q) + ∑ q : Fin 512, F (col 1 q)) + ∑ q : Fin 512, F (col 2 q))
      + ∑ q : Fin 512, F (col 3 q) = ∑ q : Fin 2048, F q := by
  have h := (finProdFinEquiv : Fin 4 × Fin 512 ≃ Fin (4 * 512)).sum_comp F
  rw [Fintype.sum_prod_type, Fin.sum_univ_four] at h
  simp only [← col_eq] at h
  exact h

theorem acc_three (v a : (⟨2, ![2048, 2048]⟩ : Shape).Idx → EReal) (W1 : (⟨2, ![256, 2048]⟩ : Shape).Idx → EReal)
    (r : Fin 2048) (j : Fin 256) :
    acc v a W1 3 r j = ((part v a W1 0 r j + part v a W1 1 r j) + part v a W1 2 r j) + part v a W1 3 r j := rfl

/-- Over the reals: distributivity and the exchange of the two finite sums. -/
theorem real_assoc (A : Fin 2048 → ℝ) (V : Fin 2048 → Fin 2048 → ℝ) (Vr W : Fin 2048 → ℝ) (E : ℝ) :
    (∑ q : Fin 2048, A q * ∑ k : Fin 2048, V q k * W k) + E * ∑ k : Fin 2048, Vr k * W k
      = ∑ k : Fin 2048, ((∑ q : Fin 2048, A q * V q k) + E * Vr k) * W k := by
  simp only [add_mul, Finset.sum_add_distrib, Finset.sum_mul, Finset.mul_sum]
  congr 1
  · rw [Finset.sum_comm]
    refine Finset.sum_congr rfl fun k _ => Finset.sum_congr rfl fun q _ => ?_
    ring
  · refine Finset.sum_congr rfl fun k _ => ?_
    ring

/-- On real arrays the two associations of the first affine map agree. -/
theorem preK_eq_preR (v a : (⟨2, ![2048, 2048]⟩ : Shape).Idx → EReal) (e : (⟨2, ![1, 1]⟩ : Shape).Idx → EReal)
    (W1 : (⟨2, ![256, 2048]⟩ : Shape).Idx → EReal) (b1 : (⟨1, ![256]⟩ : Shape).Idx → EReal)
    (hv : AllReal v) (ha : AllReal a) (he : AllReal e) (hW : AllReal W1) (hb : AllReal b1) (r : Fin 2048) (j : Fin 256) :
    preK v a e W1 b1 r j = preR v a e W1 b1 r j := by
  choose fv hv using hv
  choose fa ha using ha
  choose fe he using he
  choose fW hW using hW
  choose fb hb using hb
  have hB := sum_blocks (fun q => fa (ix2 r q) * ∑ k : Fin 2048, fv (ix2 q k) * fW (ix2 j k))
  have hA := real_assoc (fun q => fa (ix2 r q)) (fun q k => fv (ix2 q k)) (fun k => fv (ix2 r k))
    (fun k => fW (ix2 j k)) (fe (ix2 0 0))
  beta_reduce at hB hA
  rw [preK, preR, acc_three]
  simp only [part, vW, hv, ha, he, hW, hb]
  simp only [← EReal.coe_mul, ← coe_sum, ← EReal.coe_add]
  rw [hB, hA]

end Cert.Gin

end
-- ==== Proof.KI.ValueAcc.lean ====
import proofs.«163186_g6957847020190_cont_9to1_m_143_23_alg».proof.Proof.KI.Pieces
import proofs.«163186_g6957847020190_cont_9to1_m_143_23_alg».proof.Proof.KI.ValueParts
import proofs.«163186_g6957847020190_cont_9to1_m_143_23_alg».proof.Proof.KI.ValueW
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

section Halves

variable {F : FTy → Type} [FloatOps F] {sg : RefSig} {κ : Kind} {sp : Space} {e : EltTy}

theorem read_halves (v : View sg κ sp S2048x256 e) (f : v.ty.Contents (Elt F))
    (inbA : ∀ a, (![1024, 0] : Fin 2 → ℕ) a + (![1024, 256] : Fin 2 → ℕ) a ≤ S2048x256.size a)
    (inbB : ∀ a, (![0, 0] : Fin 2 → ℕ) a + (![1024, 256] : Fin 2 → ℕ) a ≤ S2048x256.size a)
    (P2 P1 : S1024x256.Idx → Elt F e) (r : Fin 2048) (j : Fin 256) :
    v.read (Elt F) (v.writes (Elt F) f
        [⟨Rect.unit ![1024, 0] ![1024, 256] inbA, P2⟩, ⟨Rect.unit ![0, 0] ![1024, 256] inbB, P1⟩]) (ix2 r j)
      = if h : r.val < 1024 then P1 (ix2 ⟨r.val, h⟩ j) else P2 (ix2 ⟨r.val - 1024, by have := r.isLt; omega⟩ j) := by
  split_ifs with h
  · rw [View.read_writes_cons_rows_of_not_mem v f inbA P2 _ (ix2 r j) (o := 1024) (W := 1024) rfl rfl (Or.inl h)]
    exact View.read_writes_cons_rows_of_mem v f inbB P1 [] (ix2 r j) (ix2 ⟨r.val, h⟩ j) (o := 0) rfl
      (by show r.val = 0 + r.val; omega) rfl
  · exact View.read_writes_cons_rows_of_mem v f inbA P2 _ (ix2 r j) (ix2 ⟨r.val - 1024, by have := r.isLt; omega⟩ j) (o := 1024) rfl
      (by show r.val = 1024 + (r.val - 1024); omega) rfl

theorem ld_lo {α : Type} (X : S2048x256.Idx → α)
    (inbB : ∀ a, (![0, 0] : Fin 2 → ℕ) a + (![1024, 256] : Fin 2 → ℕ) a ≤ S2048x256.size a) (r : Fin 1024) (j : Fin 256) :
    X ((Rect.unit (s := S2048x256) ![0, 0] ![1024, 256] inbB).idx (ix2 r j)) = X (ix2 ⟨r.val, by have := r.isLt; omega⟩ j) := by
  refine congrArg X (funext fun a => Fin.ext ?_)
  match a with
  | ⟨0, _⟩ => show 0 + 1 * r.val = r.val; omega
  | ⟨1, _⟩ => show 0 + 1 * j.val = j.val; omega

theorem ld_hi {α : Type} (X : S2048x256.Idx → α)
    (inbA : ∀ a, (![1024, 0] : Fin 2 → ℕ) a + (![1024, 256] : Fin 2 → ℕ) a ≤ S2048x256.size a) (r : Fin 1024) (j : Fin 256) :
    X ((Rect.unit (s := S2048x256) ![1024, 0] ![1024, 256] inbA).idx (ix2 r j)) = X (ix2 ⟨1024 + r.val, by have := r.isLt; omega⟩ j) := by
  refine congrArg X (funext fun a => Fin.ext ?_)
  match a with
  | ⟨0, _⟩ => show 1024 + 1 * r.val = 1024 + r.val; omega
  | ⟨1, _⟩ => show 0 + 1 * j.val = j.val; omega

end Halves

variable (m : (ℓ : Loc nD τ sig) → Buf (Elt Ideal) ℓ) (c : Dev nD)

theorem halves_first_apply {sg : RefSig} {κ : Kind} {sp : Space} (v : View sg κ sp S2048x256 .f32) (f : v.ty.Contents (Elt Ideal))
    (t : Fin cfg0.N) (ht : t.val = 0) (w : Vec Ideal S256x2048 .bf16) (hw : ∀ y, w y = aW m c y) (r : Fin 2048) (j : Fin 256) :
    v.read (Elt Ideal) (v.writes (Elt Ideal) f
        [⟨Rect.unit ![1024, 0] ![1024, 256] inb_S2048x256_S1024x256_1024_0, k0_pay8 (F := Ideal) (k0_pay14 (F := Ideal) (iblk m c 0 t) w) (k0_pay16 (F := Ideal) (iblk m c 1 t) w) (k0_pay18 (F := Ideal) (iblk m c 2 t) w) (iblk m c 3 t) w (iblk m c 5 t)⟩,
         ⟨Rect.unit ![0, 0] ![1024, 256] inb_S2048x256_S1024x256_0_0, k0_pay7 (F := Ideal) (k0_pay14 (F := Ideal) (iblk m c 0 t) w) (k0_pay16 (F := Ideal) (iblk m c 1 t) w) (k0_pay18 (F := Ideal) (iblk m c 2 t) w) (iblk m c 3 t) w (iblk m c 4 t)⟩]) (ix2 r j)
      = Cert.Gin.acc (aV m c) (aA m c) (aW m c) 0 r j := by
  rw [read_halves]
  split_ifs with h
  · rw [pay7_eq, part_lo m c t w hw, ht]
    rfl
  · rw [pay8_eq, part_hi m c t w hw, ht]
    exact congrArg (fun z => Cert.Gin.part (aV m c) (aA m c) (aW m c) 0 z j)
      (Fin.ext (by show 1024 + (r.val - 1024) = r.val; omega))

theorem halves_later_apply {sg : RefSig} {κ : Kind} {sp : Space} (v : View sg κ sp S2048x256 .f32) (f : v.ty.Contents (Elt Ideal))
    (t : Fin cfg0.N) (n : ℕ) (ht : t.val = n + 1) (w : Vec Ideal S256x2048 .bf16) (hw : ∀ y, w y = aW m c y)
    (X : Vec Ideal S2048x256 .f32) (hX : ∀ r j, X (ix2 r j) = Cert.Gin.acc (aV m c) (aA m c) (aW m c) n r j)
    (r : Fin 2048) (j : Fin 256) :
    v.read (Elt Ideal) (v.writes (Elt Ideal) f
        [⟨Rect.unit ![1024, 0] ![1024, 256] inb_S2048x256_S1024x256_1024_0,
          k0_pay10 (F := Ideal) (k0_pay14 (F := Ideal) (iblk m c 0 t) w) (k0_pay16 (F := Ideal) (iblk m c 1 t) w) (k0_pay18 (F := Ideal) (iblk m c 2 t) w) (iblk m c 3 t) w (iblk m c 5 t) (View.ld X (Rect.unit ![1024, 0] ![1024, 256] inb_S2048x256_S1024x256_1024_0))⟩,
         ⟨Rect.unit ![0, 0] ![1024, 256] inb_S2048x256_S1024x256_0_0,
          k0_pay9 (F := Ideal) (k0_pay14 (F := Ideal) (iblk m c 0 t) w) (k0_pay16 (F := Ideal) (iblk m c 1 t) w) (k0_pay18 (F := Ideal) (iblk m c 2 t) w) (iblk m c 3 t) w (iblk m c 4 t) (View.ld X (Rect.unit ![0, 0] ![1024, 256] inb_S2048x256_S1024x256_0_0))⟩]) (ix2 r j)
      = Cert.Gin.acc (aV m c) (aA m c) (aW m c) (n + 1) r j := by
  rw [read_halves]
  split_ifs with h
  · rw [pay9_apply, part_lo m c t w hw, ht]
    show X ((Rect.unit (s := S2048x256) ![0, 0] ![1024, 256] inb_S2048x256_S1024x256_0_0).idx (ix2 ⟨r.val, h⟩ j)) + _ = _
    rw [ld_lo X, hX]
    rfl
  · rw [pay10_apply, part_hi m c t w hw, ht]
    show X ((Rect.unit (s := S2048x256) ![1024, 0] ![1024, 256] inb_S2048x256_S1024x256_1024_0).idx
      (ix2 ⟨r.val - 1024, by have := r.isLt; omega⟩ j)) + _ = _
    rw [ld_hi X, hX]
    exact congrArg (fun z => Cert.Gin.acc (aV m c) (aA m c) (aW m c) n z j + Cert.Gin.part (aV m c) (aA m c) (aW m c) (n + 1) z j)
      (Fin.ext (by show 1024 + (r.val - 1024) = r.val; omega))

theorem fst_mk {α β : Type} (a : α) (b : β) : (a, b).1 = a := rfl

theorem hWc (y : S256x2048.Idx) : Wc (F := Ideal) m c y = aW m c y := by
  rw [Wc_eq, V_arg3]

theorem acc0_apply (hn : 0 < cfg0.N) (r : Fin 2048) (j : Fin 256) :
    (accAt (F := Ideal) m c 0 hn).1 (ix2 r j) = Cert.Gin.acc (aV m c) (aA m c) (aW m c) 0 r j := by
  have hw : ∀ y, k0_pay13 (F := Ideal) (iblk m c 7 ⟨0, hn⟩) y = aW m c y := fun y => by
    rw [pay13_eq, blk7_eq, V_arg3]
  rw [show accAt (F := Ideal) m c 0 hn = (_, _) from rfl]
  rw [hFirst_pieces, fst_mk]
  exact halves_first_apply m c scH.view scH.view.junk ⟨0, hn⟩ rfl (k0_pay13 (F := Ideal) (iblk m c 7 ⟨0, hn⟩)) hw r j

theorem acc_succ_apply (n : ℕ) (hn : n + 1 < cfg0.N)
    (ih : ∀ r j, (accAt (F := Ideal) m c n (Nat.lt_of_succ_lt hn)).1 (ix2 r j) = Cert.Gin.acc (aV m c) (aA m c) (aW m c) n r j)
    (r : Fin 2048) (j : Fin 256) :
    (accAt (F := Ideal) m c (n + 1) hn).1 (ix2 r j) = Cert.Gin.acc (aV m c) (aA m c) (aW m c) (n + 1) r j := by
  rw [show accAt (F := Ideal) m c (n + 1) hn = dite (n + 1 = 3) _ _ from rfl]
  by_cases h3 : n + 1 = 3
  · rw [dif_pos h3]
    dsimp only
    rw [hLast_pieces]
    exact halves_later_apply m c scH.view scH.view.junk ⟨n + 1, hn⟩ n rfl (Wc m c) (hWc m c)
      (accAt (F := Ideal) m c n (Nat.lt_of_succ_lt hn)).1 ih r j
  · rw [dif_neg h3]
    dsimp only
    rw [hLater_pieces]
    exact halves_later_apply m c scH.view scH.view.junk ⟨n + 1, hn⟩ n rfl (Wc m c) (hWc m c)
      (accAt (F := Ideal) m c n (Nat.lt_of_succ_lt hn)).1 ih r j

theorem acc_apply : ∀ (n : ℕ) (hn : n < cfg0.N) (r : Fin 2048) (j : Fin 256),
    (accAt (F := Ideal) m c n hn).1 (ix2 r j) = Cert.Gin.acc (aV m c) (aA m c) (aW m c) n r j
  | 0, hn, r, j => acc0_apply m c hn r j
  | n + 1, hn, r, j => acc_succ_apply m c n hn (fun r j => acc_apply n (Nat.lt_of_succ_lt hn) r j) r j

end Cert.KernelIdeal.Hand

end
-- ==== Proof.KI.ValueOut.lean ====
import proofs.«163186_g6957847020190_cont_9to1_m_143_23_alg».proof.Proof.KI.Pieces
import proofs.«163186_g6957847020190_cont_9to1_m_143_23_alg».proof.Proof.KI.ValueParts
import proofs.«163186_g6957847020190_cont_9to1_m_143_23_alg».proof.Proof.KI.ValueW
import proofs.«163186_g6957847020190_cont_9to1_m_143_23_alg».proof.Proof.KI.ValueStrips
import proofs.«163186_g6957847020190_cont_9to1_m_143_23_alg».proof.Proof.KI.PayloadsB
import proofs.«163186_g6957847020190_cont_9to1_m_143_23_alg».proof.Proof.Algebra
import Idealize.ShloMosaic.Lib.Pipeline.Value
import Idealize.ShloMosaic.Lib.WritesUnit
import proofs.«163186_g6957847020190_cont_9to1_m_143_23_alg».proof.Proof.KI.ValueAcc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (c : Dev nD)

theorem lnRelu_congr {x x' g g' b b' : Fin 256 → EReal} (hx : ∀ k, x k = x' k) (hg : ∀ k, g k = g' k) (hb : ∀ k, b k = b' k)
    (j : Fin 256) : Cert.Gin.lnRelu x g b j = Cert.Gin.lnRelu x' g' b' j := by
  rw [funext hx, funext hg, funext hb]

theorem read_writes_unread {F : FTy → Type} [FloatOps F] {sg : RefSig} {κ : Kind} {sp : Space} {S : Shape} {e : EltTy}
    (M : Memref sg κ sp S e) (h : M.IsWhole) (L2 Lz : List (View.Piece (Elt F) S e)) (y : S.Idx) :
    M.view.read (Elt F) (M.view.writes (Elt F) (h.unread (M.view.read (Elt F) (M.view.writes (Elt F) M.view.junk L2))) Lz) y
      = M.view.read (Elt F) (M.view.writes (Elt F) M.view.junk (Lz ++ L2)) y := by
  rw [Memref.IsWhole.unread_read, View.writes_append]

theorem lastH_apply (r : Fin 2048) (k : Fin 256) (L : List (View.Piece (Elt Ideal) S2048x256 .f32))
    (hL : L = [⟨Rect.unit ![1024, 0] ![1024, 256] inb_S2048x256_S1024x256_1024_0,
          k0_pay10 (F := Ideal) (k0_pay14 (F := Ideal) (iblk m c 0 t0_3) (Wc m c)) (k0_pay16 (F := Ideal) (iblk m c 1 t0_3) (Wc m c)) (k0_pay18 (F := Ideal) (iblk m c 2 t0_3) (Wc m c)) (iblk m c 3 t0_3) (Wc m c) (iblk m c 5 t0_3)
            (View.ld (accAt (F := Ideal) m c 2 lt2).1 (Rect.unit ![1024, 0] ![1024, 256] inb_S2048x256_S1024x256_1024_0))⟩,
         ⟨Rect.unit ![0, 0] ![1024, 256] inb_S2048x256_S1024x256_0_0,
          k0_pay9 (F := Ideal) (k0_pay14 (F := Ideal) (iblk m c 0 t0_3) (Wc m c)) (k0_pay16 (F := Ideal) (iblk m c 1 t0_3) (Wc m c)) (k0_pay18 (F := Ideal) (iblk m c 2 t0_3) (Wc m c)) (iblk m c 3 t0_3) (Wc m c) (iblk m c 4 t0_3)
            (View.ld (accAt (F := Ideal) m c 2 lt2).1 (Rect.unit ![0, 0] ![1024, 256] inb_S2048x256_S1024x256_0_0))⟩]) :
    View.canon L (ix2 r k) = Cert.Gin.acc (aV m c) (aA m c) (aW m c) 3 r k := by
  rw [hL, ← View.read_writes_junk_eq_canon scH.view]
  exact halves_later_apply m c scH.view scH.view.junk t0_3 2 rfl (Wc m c) (hWc m c) (accAt (F := Ideal) m c 2 lt2).1
    (acc_apply m c 2 lt2) r k

/-- Entry (r, j) of the block stored at the last point is the layer of the arguments read the kernel's way. -/
theorem outC_apply (r : Fin 2048) (j : Fin 256) :
    outC (F := Ideal) m c (ix2 r j)
      = Cert.Gin.layer (Cert.Gin.preK (m ((c : Thread nD τ).loc main_arg0)) (m ((c : Thread nD τ).loc main_arg1)) (m ((c : Thread nD τ).loc main_arg2)) (m ((c : Thread nD τ).loc main_arg3)) (m ((c : Thread nD τ).loc main_arg4)))
          (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) r j := by
  unfold outC
  rw [oLast_piece, View.read_writes_junk_eq_canon, View.canon_unit_zero (S := S2048x256) hz2]
  rw [pay11_apply, Cert.Gin.lnReluK_eq]
  unfold Cert.Gin.layer
  refine lnRelu_congr (fun k => ?_) (fun k => ?_) (fun k => ?_) j
  · unfold Cert.Gin.dense2
    refine congrArg₂ (fun (x y : EReal) => x + y)
      (Finset.sum_congr rfl fun k' _ => congrArg₂ (fun (x y : EReal) => x * y) ?_ ?_) ?_
    · rw [pay12_apply, Cert.Gin.lnReluK_eq]
      refine lnRelu_congr (fun k'' => ?_) (fun k'' => ?_) (fun k'' => ?_) k'
      · unfold Cert.Gin.preK
        refine congrArg₂ (fun (x y : EReal) => x + y)
          (congrArg₂ (fun (x y : EReal) => x + y) ?_ (congrArg₂ (fun (x y : EReal) => x * y) ?_ ?_)) ?_
        · exact lastH_apply m c r k'' _ (hLast_pieces ..)
        · rw [blk6_eq, V_arg2]
        · refine (read_writes_unread (F := Ideal) scU (Memref.isWhole_whole _) (accAt (F := Ideal) m c 2 lt2).2 _ (ix2 r k'')).trans ?_
          exact View.read_writes_apply_of_pieces scU.view scU.view.junk (vWG m c) _ (strips_agree m c 3 lt3) (ix2 r k'')
            (strips_cover m c (ix2 r k''))
        · rw [blk8_eq, V_v0_apply]
      · rw [blk9_eq, V_v1_apply]
      · rw [blk10_eq, V_v2_apply]
    · rw [blk11_eq, V_arg7]
    · rw [blk12_eq, V_v3_apply]
  · rw [blk13_eq, V_v4_apply]
  · rw [blk14_eq, V_v5_apply]

end Cert.KernelIdeal.Hand

end
-- ==== Proof.RefOps.lean ====
import proofs.«163186_g6957847020190_cont_9to1_m_143_23_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ binary main_arg1 main_arg0 main_v0 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    unary main_arg2 main_v1 (broadcastInDim S2048x2048 ![0, 1] bcast_S1x1_S2048x2048_0_1 : (⟨S1x1, .f32⟩ : BufTy).Contents (Elt F) → (⟨S2048x2048, .f32⟩ : BufTy).Contents (Elt F)),
    binary main_v1 main_arg0 main_v2 (mulf : (⟨S2048x2048, .f32⟩ : BufTy).Contents (Elt F) → (⟨S2048x2048, .f32⟩ : BufTy).Contents (Elt F) → (⟨S2048x2048, .f32⟩ : BufTy).Contents (Elt F)),
    binary main_v0 main_v2 main_v3 (addf : (⟨S2048x2048, .f32⟩ : BufTy).Contents (Elt F) → (⟨S2048x2048, .f32⟩ : BufTy).Contents (Elt F) → (⟨S2048x2048, .f32⟩ : BufTy).Contents (Elt F)),
    unary main_arg3 main_v4 ((transpose S2048x256 [1, 0] · transposes_S256x2048_S2048x256_1_0) : (⟨S256x2048, .f32⟩ : BufTy).Contents (Elt F) → (⟨S2048x256, .f32⟩ : BufTy).Contents (Elt F)),
    binary main_v3 main_v4 main_v5 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    unary main_arg4 main_v6 (broadcastInDim S1x256 ![1] bcast_S256_S1x256_1 : (⟨S256, .f32⟩ : BufTy).Contents (Elt F) → (⟨S1x256, .f32⟩ : BufTy).Contents (Elt F)),
    unary main_v6 main_v7 (broadcastInDim S2048x256 ![0, 1] bcast_S1x256_S2048x256_0_1 : (⟨S1x256, .f32⟩ : BufTy).Contents (Elt F) → (⟨S2048x256, .f32⟩ : BufTy).Contents (Elt F)),
    binary main_v5 main_v7 main_v8 (addf : (⟨S2048x256, .f32⟩ : BufTy).Contents (Elt F) → (⟨S2048x256, .f32⟩ : BufTy).Contents (Elt F) → (⟨S2048x256, .f32⟩ : BufTy).Contents (Elt F)) ]

abbrev opsB : List (HloOp τ sig (Elt F)) :=
  [ nullary main_cst (constant S_ .f32 0x00000000#32),
    binary main_v8 main_cst main_v9 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    unary main_v9 main_v10 (broadcastInDim S2048x1 ![0] bcast_S2048_S2048x1_0 : (⟨S2048, .f32⟩ : BufTy).Contents (Elt F) → (⟨S2048x1, .f32⟩ : BufTy).Contents (Elt F)),
    nullary main_cst_0 (constant S_ .f32 0x43800000#32),
    unary main_cst_0 main_v11 (broadcastInDim S2048x1 ![] bcast_S_S2048x1 : (⟨S_, .f32⟩ : BufTy).Contents (Elt F) → (⟨S2048x1, .f32⟩ : BufTy).Contents (Elt F)),
    binary main_v10 main_v11 main_v12 (Host.divf : (⟨S2048x1, .f32⟩ : BufTy).Contents (Elt F) → (⟨S2048x1, .f32⟩ : BufTy).Contents (Elt F) → (⟨S2048x1, .f32⟩ : BufTy).Contents (Elt F)),
    nullary main_c (constantI S_ 32 0#32),
    TRef.nullary main_call0.cst (constant S_ .f32 0x00000000#32),
    TRef.binary (.of main_v8) main_call0.cst main_call0.v0 (fun x v => Host.reduceAdd x v reducesTo_S2048x256_S2048_d1 h_S_),
    TRef.unary main_call0.v0 main_call0.v1 (broadcastInDim S2048x1 ![0] bcast_S2048_S2048x1_0),
    TRef.nullary main_call0.cst_0 (constant S_ .f32 0x43800000#32),
    TRef.unary main_call0.cst_0 main_call0.v2 (broadcastInDim S2048x1 ![] bcast_S_S2048x1),
    TRef.binary main_call0.v1 main_call0.v2 main_call0.v3 Host.divf,
    TRef.unary main_call0.v3 main_call0.v4 (broadcastInDim S2048x256 ![0, 1] bcast_S2048x1_S2048x256_0_1),
    TRef.binary (.of main_v8) main_call0.v4 main_call0.v5 subf,
    TRef.binary main_call0.v5 main_call0.v5 main_call0.v6 mulf,
    TRef.unary (.of main_c) main_call0.v7 (sitofp .f32),
    TRef.nullary main_call0.cst_1 (constant S_ .f32 0x43800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2048x256_S2048_d1 h_S_),
    TRef.unary main_call0.v9 main_call0.v10 (broadcastInDim S2048x1 ![0] bcast_S2048_S2048x1_0),
    TRef.unary main_call0.v8 main_call0.v11 (broadcastInDim S2048x1 ![] bcast_S_S2048x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2048x1 ![] bcast_S_S2048x1),
    TRef.ternary main_call0.v13 main_call0.v12 main_call0.call0.v1 main_call0.call0.v2 (fun p a b => select (broadcastInDim S2048x1 ![] bcast_S_S2048x1 p) a b),
    unary main_v12 main_v14 (broadcastInDim S2048x256 ![0, 1] bcast_S2048x1_S2048x256_0_1 : (⟨S2048x1, .f32⟩ : BufTy).Contents (Elt F) → (⟨S2048x256, .f32⟩ : BufTy).Contents (Elt F)),
    binary main_v8 main_v14 main_v15 (subf : (⟨S2048x256, .f32⟩ : BufTy).Contents (Elt F) → (⟨S2048x256, .f32⟩ : BufTy).Contents (Elt F) → (⟨S2048x256, .f32⟩ : BufTy).Contents (Elt F)),
    nullary main_cst_1 (constant S_ .f32 0x3727C5AC#32),
    unary main_cst_1 main_v16 (broadcastInDim S2048x1 ![] bcast_S_S2048x1 : (⟨S_, .f32⟩ : BufTy).Contents (Elt F) → (⟨S2048x1, .f32⟩ : BufTy).Contents (Elt F)),
    binary main_v13 main_v16 main_v17 (addf : (⟨S2048x1, .f32⟩ : BufTy).Contents (Elt F) → (⟨S2048x1, .f32⟩ : BufTy).Contents (Elt F) → (⟨S2048x1, .f32⟩ : BufTy).Contents (Elt F)),
    unary main_v17 main_v18 (Host.sqrt : (⟨S2048x1, .f32⟩ : BufTy).Contents (Elt F) → (⟨S2048x1, .f32⟩ : BufTy).Contents (Elt F)),
    unary main_v18 main_v19 (broadcastInDim S2048x256 ![0, 1] bcast_S2048x1_S2048x256_0_1 : (⟨S2048x1, .f32⟩ : BufTy).Contents (Elt F) → (⟨S2048x256, .f32⟩ : BufTy).Contents (Elt F)),
    binary main_v15 main_v19 main_v20 (Host.divf : (⟨S2048x256, .f32⟩ : BufTy).Contents (Elt F) → (⟨S2048x256, .f32⟩ : BufTy).Contents (Elt F) → (⟨S2048x256, .f32⟩ : BufTy).Contents (Elt F)),
    unary main_arg5 main_v21 (broadcastInDim S1x256 ![1] bcast_S256_S1x256_1 : (⟨S256, .f32⟩ : BufTy).Contents (Elt F) → (⟨S1x256, .f32⟩ : BufTy).Contents (Elt F)),
    unary main_v21 main_v22 (broadcastInDim S2048x256 ![0, 1] bcast_S1x256_S2048x256_0_1 : (⟨S1x256, .f32⟩ : BufTy).Contents (Elt F) → (⟨S2048x256, .f32⟩ : BufTy).Contents (Elt F)),
    binary main_v20 main_v22 main_v23 (mulf : (⟨S2048x256, .f32⟩ : BufTy).Contents (Elt F) → (⟨S2048x256, .f32⟩ : BufTy).Contents (Elt F) → (⟨S2048x256, .f32⟩ : BufTy).Contents (Elt F)),
    unary main_arg6 main_v24 (broadcastInDim S1x256 ![1] bcast_S256_S1x256_1 : (⟨S256, .f32⟩ : BufTy).Contents (Elt F) → (⟨S1x256, .f32⟩ : BufTy).Contents (Elt F)),
    unary main_v24 main_v25 (broadcastInDim S2048x256 ![0, 1] bcast_S1x256_S2048x256_0_1 : (⟨S1x256, .f32⟩ : BufTy).Contents (Elt F) → (⟨S2048x256, .f32⟩ : BufTy).Contents (Elt F)),
    binary main_v23 main_v25 main_v26 (addf : (⟨S2048x256, .f32⟩ : BufTy).Contents (Elt F) → (⟨S2048x256, .f32⟩ : BufTy).Contents (Elt F) → (⟨S2048x256, .f32⟩ : BufTy).Contents (Elt F)),
    TRef.nullary main_call1.cst (constant S_ .f32 0x00000000#32),
    TRef.unary main_call1.cst main_call1.v0 (broadcastInDim S2048x256 ![] bcast_S_S2048x256),
    TRef.binary (.of main_v26) main_call1.v0 main_call1.v1 maximumf ]

abbrev opsC : List (HloOp τ sig (Elt F)) :=
  [ unary main_arg7 main_v28 ((transpose S256x256 [1, 0] · transposes_S256x256_S256x256_1_0) : (⟨S256x256, .f32⟩ : BufTy).Contents (Elt F) → (⟨S256x256, .f32⟩ : BufTy).Contents (Elt F)),
    binary main_v27 main_v28 main_v29 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg8 main_v30 (broadcastInDim S1x256 ![1] bcast_S256_S1x256_1 : (⟨S256, .f32⟩ : BufTy).Contents (Elt F) → (⟨S1x256, .f32⟩ : BufTy).Contents (Elt F)),
    unary main_v30 main_v31 (broadcastInDim S2048x256 ![0, 1] bcast_S1x256_S2048x256_0_1 : (⟨S1x256, .f32⟩ : BufTy).Contents (Elt F) → (⟨S2048x256, .f32⟩ : BufTy).Contents (Elt F)),
    binary main_v29 main_v31 main_v32 (addf : (⟨S2048x256, .f32⟩ : BufTy).Contents (Elt F) → (⟨S2048x256, .f32⟩ : BufTy).Contents (Elt F) → (⟨S2048x256, .f32⟩ : BufTy).Contents (Elt F)) ]

abbrev opsD : List (HloOp τ sig (Elt F)) :=
  [ nullary main_cst_2 (constant S_ .f32 0x00000000#32),
    binary main_v32 main_cst_2 main_v33 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    unary main_v33 main_v34 (broadcastInDim S2048x1 ![0] bcast_S2048_S2048x1_0 : (⟨S2048, .f32⟩ : BufTy).Contents (Elt F) → (⟨S2048x1, .f32⟩ : BufTy).Contents (Elt F)),
    nullary main_cst_3 (constant S_ .f32 0x43800000#32),
    unary main_cst_3 main_v35 (broadcastInDim S2048x1 ![] bcast_S_S2048x1 : (⟨S_, .f32⟩ : BufTy).Contents (Elt F) → (⟨S2048x1, .f32⟩ : BufTy).Contents (Elt F)),
    binary main_v34 main_v35 main_v36 (Host.divf : (⟨S2048x1, .f32⟩ : BufTy).Contents (Elt F) → (⟨S2048x1, .f32⟩ : BufTy).Contents (Elt F) → (⟨S2048x1, .f32⟩ : BufTy).Contents (Elt F)),
    nullary main_c_4 (constantI S_ 32 0#32),
    TRef.nullary main_call2.cst (constant S_ .f32 0x00000000#32),
    TRef.binary (.of main_v32) main_call2.cst main_call2.v0 (fun x v => Host.reduceAdd x v reducesTo_S2048x256_S2048_d1 h_S_),
    TRef.unary main_call2.v0 main_call2.v1 (broadcastInDim S2048x1 ![0] bcast_S2048_S2048x1_0),
    TRef.nullary main_call2.cst_0 (constant S_ .f32 0x43800000#32),
    TRef.unary main_call2.cst_0 main_call2.v2 (broadcastInDim S2048x1 ![] bcast_S_S2048x1),
    TRef.binary main_call2.v1 main_call2.v2 main_call2.v3 Host.divf,
    TRef.unary main_call2.v3 main_call2.v4 (broadcastInDim S2048x256 ![0, 1] bcast_S2048x1_S2048x256_0_1),
    TRef.binary (.of main_v32) main_call2.v4 main_call2.v5 subf,
    TRef.binary main_call2.v5 main_call2.v5 main_call2.v6 mulf,
    TRef.unary (.of main_c_4) main_call2.v7 (sitofp .f32),
    TRef.nullary main_call2.cst_1 (constant S_ .f32 0x43800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S2048x256_S2048_d1 h_S_),
    TRef.unary main_call2.v9 main_call2.v10 (broadcastInDim S2048x1 ![0] bcast_S2048_S2048x1_0),
    TRef.unary main_call2.v8 main_call2.v11 (broadcastInDim S2048x1 ![] bcast_S_S2048x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S2048x1 ![] bcast_S_S2048x1),
    TRef.ternary main_call2.v13 main_call2.v12 main_call2.call0.v1 main_call2.call0.v2 (fun p a b => select (broadcastInDim S2048x1 ![] bcast_S_S2048x1 p) a b),
    unary main_v36 main_v38 (broadcastInDim S2048x256 ![0, 1] bcast_S2048x1_S2048x256_0_1 : (⟨S2048x1, .f32⟩ : BufTy).Contents (Elt F) → (⟨S2048x256, .f32⟩ : BufTy).Contents (Elt F)),
    binary main_v32 main_v38 main_v39 (subf : (⟨S2048x256, .f32⟩ : BufTy).Contents (Elt F) → (⟨S2048x256, .f32⟩ : BufTy).Contents (Elt F) → (⟨S2048x256, .f32⟩ : BufTy).Contents (Elt F)),
    nullary main_cst_5 (constant S_ .f32 0x3727C5AC#32),
    unary main_cst_5 main_v40 (broadcastInDim S2048x1 ![] bcast_S_S2048x1 : (⟨S_, .f32⟩ : BufTy).Contents (Elt F) → (⟨S2048x1, .f32⟩ : BufTy).Contents (Elt F)),
    binary main_v37 main_v40 main_v41 (addf : (⟨S2048x1, .f32⟩ : BufTy).Contents (Elt F) → (⟨S2048x1, .f32⟩ : BufTy).Contents (Elt F) → (⟨S2048x1, .f32⟩ : BufTy).Contents (Elt F)),
    unary main_v41 main_v42 (Host.sqrt : (⟨S2048x1, .f32⟩ : BufTy).Contents (Elt F) → (⟨S2048x1, .f32⟩ : BufTy).Contents (Elt F)),
    unary main_v42 main_v43 (broadcastInDim S2048x256 ![0, 1] bcast_S2048x1_S2048x256_0_1 : (⟨S2048x1, .f32⟩ : BufTy).Contents (Elt F) → (⟨S2048x256, .f32⟩ : BufTy).Contents (Elt F)),
    binary main_v39 main_v43 main_v44 (Host.divf : (⟨S2048x256, .f32⟩ : BufTy).Contents (Elt F) → (⟨S2048x256, .f32⟩ : BufTy).Contents (Elt F) → (⟨S2048x256, .f32⟩ : BufTy).Contents (Elt F)),
    unary main_arg9 main_v45 (broadcastInDim S1x256 ![1] bcast_S256_S1x256_1 : (⟨S256, .f32⟩ : BufTy).Contents (Elt F) → (⟨S1x256, .f32⟩ : BufTy).Contents (Elt F)),
    unary main_v45 main_v46 (broadcastInDim S2048x256 ![0, 1] bcast_S1x256_S2048x256_0_1 : (⟨S1x256, .f32⟩ : BufTy).Contents (Elt F) → (⟨S2048x256, .f32⟩ : BufTy).Contents (Elt F)),
    binary main_v44 main_v46 main_v47 (mulf : (⟨S2048x256, .f32⟩ : BufTy).Contents (Elt F) → (⟨S2048x256, .f32⟩ : BufTy).Contents (Elt F) → (⟨S2048x256, .f32⟩ : BufTy).Contents (Elt F)),
    unary main_arg10 main_v48 (broadcastInDim S1x256 ![1] bcast_S256_S1x256_1 : (⟨S256, .f32⟩ : BufTy).Contents (Elt F) → (⟨S1x256, .f32⟩ : BufTy).Contents (Elt F)),
    unary main_v48 main_v49 (broadcastInDim S2048x256 ![0, 1] bcast_S1x256_S2048x256_0_1 : (⟨S1x256, .f32⟩ : BufTy).Contents (Elt F) → (⟨S2048x256, .f32⟩ : BufTy).Contents (Elt F)),
    binary main_v47 main_v49 main_v50 (addf : (⟨S2048x256, .f32⟩ : BufTy).Contents (Elt F) → (⟨S2048x256, .f32⟩ : BufTy).Contents (Elt F) → (⟨S2048x256, .f32⟩ : BufTy).Contents (Elt F)),
    TRef.nullary main_call3.cst (constant S_ .f32 0x00000000#32),
    TRef.unary main_call3.cst main_call3.v0 (broadcastInDim S2048x256 ![] bcast_S_S2048x256),
    TRef.binary (.of main_v50) main_call3.v0 main_call3.v1 maximumf ]

/-- The whole program: the four stretches in order. -/
abbrev ops : List (HloOp τ sig (Elt F)) := opsA ++ (opsB ++ (opsC ++ opsD))

set_option maxRecDepth 8192 in
set_option maxHeartbeats 4000000 in
/-- @main, its calls opened, is that list run in order. -/
theorem main_eq (c : Dev nD) : main (F := F) c = seq ops := by
  simp only [main, main_part0, main_part1, fn_var.body, fn_where.body, fn_relu.body, ops, opsA, opsB, opsC, opsD,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨⟨binary_bufs_sub .., unary_bufs_sub .., binary_bufs_sub .., binary_bufs_sub .., unary_bufs_sub .., binary_bufs_sub ..,
      unary_bufs_sub .., unary_bufs_sub .., binary_bufs_sub ..⟩,
    List.forall_append.2 ⟨⟨nullary_bufs_sub .., binary_bufs_sub .., unary_bufs_sub .., nullary_bufs_sub .., unary_bufs_sub .., binary_bufs_sub ..,
      nullary_bufs_sub .., nullary_bufs_sub .., binary_bufs_sub .., unary_bufs_sub .., nullary_bufs_sub .., unary_bufs_sub ..,
      binary_bufs_sub .., unary_bufs_sub .., binary_bufs_sub .., binary_bufs_sub .., unary_bufs_sub .., nullary_bufs_sub ..,
      binary_bufs_sub .., nullary_bufs_sub .., binary_bufs_sub .., unary_bufs_sub .., unary_bufs_sub .., binary_bufs_sub ..,
      nullary_bufs_sub .., binary_bufs_sub .., nullary_bufs_sub .., unary_bufs_sub .., unary_bufs_sub .., ternary_bufs_sub ..,
      unary_bufs_sub .., binary_bufs_sub .., nullary_bufs_sub .., unary_bufs_sub .., binary_bufs_sub .., unary_bufs_sub ..,
      unary_bufs_sub .., binary_bufs_sub .., unary_bufs_sub .., unary_bufs_sub .., binary_bufs_sub .., unary_bufs_sub ..,
      unary_bufs_sub .., binary_bufs_sub .., nullary_bufs_sub .., unary_bufs_sub .., binary_bufs_sub ..⟩,
    List.forall_append.2 ⟨⟨unary_bufs_sub .., binary_bufs_sub .., unary_bufs_sub .., unary_bufs_sub .., binary_bufs_sub ..⟩,
      ⟨nullary_bufs_sub .., binary_bufs_sub .., unary_bufs_sub .., nullary_bufs_sub .., unary_bufs_sub .., binary_bufs_sub ..,
      nullary_bufs_sub .., nullary_bufs_sub .., binary_bufs_sub .., unary_bufs_sub .., nullary_bufs_sub .., unary_bufs_sub ..,
      binary_bufs_sub .., unary_bufs_sub .., binary_bufs_sub .., binary_bufs_sub .., unary_bufs_sub .., nullary_bufs_sub ..,
      binary_bufs_sub .., nullary_bufs_sub .., binary_bufs_sub .., unary_bufs_sub .., unary_bufs_sub .., binary_bufs_sub ..,
      nullary_bufs_sub .., binary_bufs_sub .., nullary_bufs_sub .., unary_bufs_sub .., unary_bufs_sub .., ternary_bufs_sub ..,
      unary_bufs_sub .., binary_bufs_sub .., nullary_bufs_sub .., unary_bufs_sub .., binary_bufs_sub .., unary_bufs_sub ..,
      unary_bufs_sub .., binary_bufs_sub .., unary_bufs_sub .., unary_bufs_sub .., binary_bufs_sub .., unary_bufs_sub ..,
      unary_bufs_sub .., binary_bufs_sub .., nullary_bufs_sub .., unary_bufs_sub .., binary_bufs_sub ..⟩⟩⟩⟩

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerms.lean ====
import proofs.«163186_g6957847020190_cont_9to1_m_143_23_alg».proof.Proof.Gen.ReferenceIdeal

noncomputable section

namespace Cert.ReferenceIdeal.Hand

open Cert.ReferenceIdeal Cert.ReferenceIdeal.Gen Idealize.ShloMosaic

variable {F : FTy → Type} [FloatOps F]

def preT (v a : (⟨S2048x2048, .f32⟩ : BufTy).Contents (Elt F)) (e : (⟨S1x1, .f32⟩ : BufTy).Contents (Elt F)) (W1 : (⟨S256x2048, .f32⟩ : BufTy).Contents (Elt F)) (b1 : (⟨S256, .f32⟩ : BufTy).Contents (Elt F)) :
    (⟨S2048x256, .f32⟩ : BufTy).Contents (Elt F) :=
  addf
    (Host.dotGeneral dot_S2048x2048_S2048x256_S2048x256_1_0_0_1_n_n none
      (addf (Host.dotGeneral dot_S2048x2048_S2048x2048_S2048x2048_1_0_0_1_n_n none a v)
        (mulf (broadcastInDim S2048x2048 ![0, 1] bcast_S1x1_S2048x2048_0_1 e) v))
      (transpose S2048x256 [1, 0] W1 transposes_S256x2048_S2048x256_1_0))
    (broadcastInDim S2048x256 ![0, 1] bcast_S1x256_S2048x256_0_1 (broadcastInDim S1x256 ![1] bcast_S256_S1x256_1 b1))

def meanT (x : (⟨S2048x256, .f32⟩ : BufTy).Contents (Elt F)) : (⟨S2048x1, .f32⟩ : BufTy).Contents (Elt F) :=
  Host.divf
    (broadcastInDim S2048x1 ![0] bcast_S2048_S2048x1_0
      (Host.reduceAdd x (constant S_ .f32 0x00000000#32) reducesTo_S2048x256_S2048_d1 h_S_))
    (broadcastInDim S2048x1 ![] bcast_S_S2048x1 (constant S_ .f32 0x43800000#32))

def divisorT : (⟨S_, .f32⟩ : BufTy).Contents (Elt F) :=
  subf (constant S_ .f32 0x43800000#32) (sitofp .f32 (constantI S_ 32 0#32))

def varT (x : (⟨S2048x256, .f32⟩ : BufTy).Contents (Elt F)) : (⟨S2048x1, .f32⟩ : BufTy).Contents (Elt F) :=
  select (broadcastInDim S2048x1 ![] bcast_S_S2048x1 (cmpf .ogt (divisorT (F := F)) (constant S_ .f32 0x00000000#32)))
    (Host.divf
      (broadcastInDim S2048x1 ![0] bcast_S2048_S2048x1_0
        (Host.reduceAdd
          (mulf (subf x (broadcastInDim S2048x256 ![0, 1] bcast_S2048x1_S2048x256_0_1 (meanT x)))
            (subf x (broadcastInDim S2048x256 ![0, 1] bcast_S2048x1_S2048x256_0_1 (meanT x))))
          (constant S_ .f32 0x00000000#32) reducesTo_S2048x256_S2048_d1 h_S_))
      (broadcastInDim S2048x1 ![] bcast_S_S2048x1 (divisorT (F := F))))
    (broadcastInDim S2048x1 ![] bcast_S_S2048x1 (id (constant S_ .f32 0x7FC00000#32)))

def lnT (x : (⟨S2048x256, .f32⟩ : BufTy).Contents (Elt F)) (g b : (⟨S256, .f32⟩ : BufTy).Contents (Elt F)) : (⟨S2048x256, .f32⟩ : BufTy).Contents (Elt F) :=
  maximumf
    (addf
      (mulf
        (Host.divf (subf x (broadcastInDim S2048x256 ![0, 1] bcast_S2048x1_S2048x256_0_1 (meanT x)))
          (broadcastInDim S2048x256 ![0, 1] bcast_S2048x1_S2048x256_0_1
            (Host.sqrt (addf (varT x) (broadcastInDim S2048x1 ![] bcast_S_S2048x1 (constant S_ .f32 0x3727C5AC#32))))))
        (broadcastInDim S2048x256 ![0, 1] bcast_S1x256_S2048x256_0_1 (broadcastInDim S1x256 ![1] bcast_S256_S1x256_1 g)))
      (broadcastInDim S2048x256 ![0, 1] bcast_S1x256_S2048x256_0_1 (broadcastInDim S1x256 ![1] bcast_S256_S1x256_1 b)))
    (broadcastInDim S2048x256 ![] bcast_S_S2048x256 (constant S_ .f32 0x00000000#32))

def denseT (y : (⟨S2048x256, .f32⟩ : BufTy).Contents (Elt F)) (W2 : (⟨S256x256, .f32⟩ : BufTy).Contents (Elt F)) (b2 : (⟨S256, .f32⟩ : BufTy).Contents (Elt F)) : (⟨S2048x256, .f32⟩ : BufTy).Contents (Elt F) :=
  addf
    (Host.dotGeneral dot_S2048x256_S256x256_S2048x256_1_0_0_1_n_n none y
      (transpose S256x256 [1, 0] W2 transposes_S256x256_S256x256_1_0))
    (broadcastInDim S2048x256 ![0, 1] bcast_S1x256_S2048x256_0_1 (broadcastInDim S1x256 ![1] bcast_S256_S1x256_1 b2))

def layerT (v a : (⟨S2048x2048, .f32⟩ : BufTy).Contents (Elt F)) (e : (⟨S1x1, .f32⟩ : BufTy).Contents (Elt F)) (W1 : (⟨S256x2048, .f32⟩ : BufTy).Contents (Elt F)) (b1 g1 be1 : (⟨S256, .f32⟩ : BufTy).Contents (Elt F))
    (W2 : (⟨S256x256, .f32⟩ : BufTy).Contents (Elt F)) (b2 g2 be2 : (⟨S256, .f32⟩ : BufTy).Contents (Elt F)) : (⟨S2048x256, .f32⟩ : BufTy).Contents (Elt F) :=
  lnT (denseT (lnT (preT v a e W1 b1) g1 be1) W2 b2) g2 be2

end Cert.ReferenceIdeal.Hand

end
-- ==== Proof.RefStage.lean ====
import proofs.«163186_g6957847020190_cont_9to1_m_143_23_alg».proof.Proof.RefOps
import proofs.«163186_g6957847020190_cont_9to1_m_143_23_alg».proof.Proof.RefTerms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem afterA_v8 (W : Valuation τ sig (Elt F)) :
    after opsA W (main_v8 : DevRef τ sig)
      = preT (W (main_arg0 : DevRef τ sig)) (W (main_arg1 : DevRef τ sig)) (W (main_arg2 : DevRef τ sig)) (W (main_arg3 : DevRef τ sig)) (W (main_arg4 : DevRef τ sig)) := by
  after_results_simp
  rfl

theorem afterA_arg5 (W : Valuation τ sig (Elt F)) :
    after opsA W (main_arg5 : DevRef τ sig) = W (main_arg5 : DevRef τ sig) := by
  after_results_simp

theorem afterA_arg6 (W : Valuation τ sig (Elt F)) :
    after opsA W (main_arg6 : DevRef τ sig) = W (main_arg6 : DevRef τ sig) := by
  after_results_simp

theorem afterA_arg7 (W : Valuation τ sig (Elt F)) :
    after opsA W (main_arg7 : DevRef τ sig) = W (main_arg7 : DevRef τ sig) := by
  after_results_simp

theorem afterA_arg8 (W : Valuation τ sig (Elt F)) :
    after opsA W (main_arg8 : DevRef τ sig) = W (main_arg8 : DevRef τ sig) := by
  after_results_simp

theorem afterA_arg9 (W : Valuation τ sig (Elt F)) :
    after opsA W (main_arg9 : DevRef τ sig) = W (main_arg9 : DevRef τ sig) := by
  after_results_simp

theorem afterA_arg10 (W : Valuation τ sig (Elt F)) :
    after opsA W (main_arg10 : DevRef τ sig) = W (main_arg10 : DevRef τ sig) := by
  after_results_simp

set_option maxRecDepth 8192 in
theorem afterB_v27 (W : Valuation τ sig (Elt F)) :
    after opsB W (main_v27 : DevRef τ sig) = lnT (W (main_v8 : DevRef τ sig)) (W (main_arg5 : DevRef τ sig)) (W (main_arg6 : DevRef τ sig)) := by
  after_results_simp
  rfl

theorem afterB_arg7 (W : Valuation τ sig (Elt F)) :
    after opsB W (main_arg7 : DevRef τ sig) = W (main_arg7 : DevRef τ sig) := by
  after_results_simp

theorem afterB_arg8 (W : Valuation τ sig (Elt F)) :
    after opsB W (main_arg8 : DevRef τ sig) = W (main_arg8 : DevRef τ sig) := by
  after_results_simp

theorem afterB_arg9 (W : Valuation τ sig (Elt F)) :
    after opsB W (main_arg9 : DevRef τ sig) = W (main_arg9 : DevRef τ sig) := by
  after_results_simp

theorem afterB_arg10 (W : Valuation τ sig (Elt F)) :
    after opsB W (main_arg10 : DevRef τ sig) = W (main_arg10 : DevRef τ sig) := by
  after_results_simp

theorem afterC_v32 (W : Valuation τ sig (Elt F)) :
    after opsC W (main_v32 : DevRef τ sig) = denseT (W (main_v27 : DevRef τ sig)) (W (main_arg7 : DevRef τ sig)) (W (main_arg8 : DevRef τ sig)) := by
  after_results_simp
  rfl

theorem afterC_arg9 (W : Valuation τ sig (Elt F)) :
    after opsC W (main_arg9 : DevRef τ sig) = W (main_arg9 : DevRef τ sig) := by
  after_results_simp

theorem afterC_arg10 (W : Valuation τ sig (Elt F)) :
    after opsC W (main_arg10 : DevRef τ sig) = W (main_arg10 : DevRef τ sig) := by
  after_results_simp

set_option maxRecDepth 8192 in
theorem afterD_v51 (W : Valuation τ sig (Elt F)) :
    after opsD W (main_v51 : DevRef τ sig) = lnT (W (main_v32 : DevRef τ sig)) (W (main_arg9 : DevRef τ sig)) (W (main_arg10 : DevRef τ sig)) := by
  after_results_simp
  rfl

theorem after_ops_v51 (V : Valuation τ sig (Elt F)) :
    after ops V (main_v51 : DevRef τ sig)
      = layerT (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig))
          (V (main_arg10 : DevRef τ sig)) := by
  rw [show (ops : List (HloOp τ sig (Elt F))) = opsA ++ (opsB ++ (opsC ++ opsD)) from rfl, after_app, after_app, after_app,
    afterD_v51, afterC_v32, afterC_arg9, afterC_arg10, afterB_v27, afterB_arg7, afterB_arg8, afterB_arg9, afterB_arg10,
    afterA_v8, afterA_arg5, afterA_arg6, afterA_arg7, afterA_arg8, afterA_arg9, afterA_arg10]
  rfl

end Cert.ReferenceIdeal.Hand

end
-- ==== Proof.RefKeep.lean ====
import proofs.«163186_g6957847020190_cont_9to1_m_143_23_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem after_ops_arg0 (V : Valuation τ sig (Elt F)) :
    after ops V (main_arg0 : DevRef τ sig) = V (main_arg0 : DevRef τ sig) := by
  simp only [ops, opsA, opsB, opsC, opsD, List.cons_append, List.nil_append]
  after_results_simp

theorem after_ops_arg1 (V : Valuation τ sig (Elt F)) :
    after ops V (main_arg1 : DevRef τ sig) = V (main_arg1 : DevRef τ sig) := by
  simp only [ops, opsA, opsB, opsC, opsD, List.cons_append, List.nil_append]
  after_results_simp

theorem after_ops_arg2 (V : Valuation τ sig (Elt F)) :
    after ops V (main_arg2 : DevRef τ sig) = V (main_arg2 : DevRef τ sig) := by
  simp only [ops, opsA, opsB, opsC, opsD, List.cons_append, List.nil_append]
  after_results_simp

theorem after_ops_arg3 (V : Valuation τ sig (Elt F)) :
    after ops V (main_arg3 : DevRef τ sig) = V (main_arg3 : DevRef τ sig) := by
  simp only [ops, opsA, opsB, opsC, opsD, List.cons_append, List.nil_append]
  after_results_simp

theorem after_ops_arg4 (V : Valuation τ sig (Elt F)) :
    after ops V (main_arg4 : DevRef τ sig) = V (main_arg4 : DevRef τ sig) := by
  simp only [ops, opsA, opsB, opsC, opsD, List.cons_append, List.nil_append]
  after_results_simp

theorem after_ops_arg5 (V : Valuation τ sig (Elt F)) :
    after ops V (main_arg5 : DevRef τ sig) = V (main_arg5 : DevRef τ sig) := by
  simp only [ops, opsA, opsB, opsC, opsD, List.cons_append, List.nil_append]
  after_results_simp

theorem after_ops_arg6 (V : Valuation τ sig (Elt F)) :
    after ops V (main_arg6 : DevRef τ sig) = V (main_arg6 : DevRef τ sig) := by
  simp only [ops, opsA, opsB, opsC, opsD, List.cons_append, List.nil_append]
  after_results_simp

theorem after_ops_arg7 (V : Valuation τ sig (Elt F)) :
    after ops V (main_arg7 : DevRef τ sig) = V (main_arg7 : DevRef τ sig) := by
  simp only [ops, opsA, opsB, opsC, opsD, List.cons_append, List.nil_append]
  after_results_simp

theorem after_ops_arg8 (V : Valuation τ sig (Elt F)) :
    after ops V (main_arg8 : DevRef τ sig) = V (main_arg8 : DevRef τ sig) := by
  simp only [ops, opsA, opsB, opsC, opsD, List.cons_append, List.nil_append]
  after_results_simp

theorem after_ops_arg9 (V : Valuation τ sig (Elt F)) :
    after ops V (main_arg9 : DevRef τ sig) = V (main_arg9 : DevRef τ sig) := by
  simp only [ops, opsA, opsB, opsC, opsD, List.cons_append, List.nil_append]
  after_results_simp

theorem after_ops_arg10 (V : Valuation τ sig (Elt F)) :
    after ops V (main_arg10 : DevRef τ sig) = V (main_arg10 : DevRef τ sig) := by
  simp only [ops, opsA, opsB, opsC, opsD, List.cons_append, List.nil_append]
  after_results_simp

end Cert.ReferenceIdeal.Hand

end
-- ==== Proof.RefRead.lean ====
import proofs.«163186_g6957847020190_cont_9to1_m_143_23_alg».proof.Proof.RefTerms
import proofs.«163186_g6957847020190_cont_9to1_m_143_23_alg».proof.Proof.Algebra
import Idealize.ShloMosaic.Lib.StackMember
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx

variable {α : Type}

theorem bcastCol_apply (h : S2048x1.BroadcastsInDim S2048x256 ![0, 1]) (c : S2048x1.Idx → α) (p : Fin 2048) (k : Fin 256) :
    broadcastInDim S2048x256 ![0, 1] h c (ix2 p k) = c (ix2 p (0 : Fin 1)) := by
  refine broadcastInDim_apply _ h c (ix2 p k) (ix2 p (0 : Fin 1)) fun a => ?_
  match a with
  | ⟨0, _⟩ => rfl
  | ⟨1, _⟩ => rfl

theorem bcastRow_apply (h1 : S256.BroadcastsInDim S1x256 ![1]) (h2 : S1x256.BroadcastsInDim S2048x256 ![0, 1])
    (g : S256.Idx → α) (p : Fin 2048) (k : Fin 256) :
    broadcastInDim S2048x256 ![0, 1] h2 (broadcastInDim S1x256 ![1] h1 g) (ix2 p k) = g (ix1 k) := by
  have e1 : broadcastInDim S2048x256 ![0, 1] h2 (broadcastInDim S1x256 ![1] h1 g) (ix2 p k)
      = broadcastInDim S1x256 ![1] h1 g (ix2 (0 : Fin 1) k) := by
    refine broadcastInDim_apply _ h2 _ (ix2 p k) (ix2 (0 : Fin 1) k) fun a => ?_
    match a with
    | ⟨0, _⟩ => rfl
    | ⟨1, _⟩ => rfl
  rw [e1]
  refine broadcastInDim_apply _ h1 g (ix2 (0 : Fin 1) k) (ix1 k) fun a => ?_
  match a with
  | ⟨0, _⟩ => rfl

theorem bcastVec_apply (h : S2048.BroadcastsInDim S2048x1 ![0]) (r : S2048.Idx → α) (p : Fin 2048) (z : Fin 1) :
    broadcastInDim S2048x1 ![0] h r (ix2 p z) = r (ix1 p) := by
  refine broadcastInDim_apply _ h r (ix2 p z) (ix1 p) fun a => ?_
  match a with
  | ⟨0, _⟩ => rfl

theorem bcastE_apply (h : S1x1.BroadcastsInDim S2048x2048 ![0, 1]) (e : S1x1.Idx → α) (p k : Fin 2048) :
    broadcastInDim S2048x2048 ![0, 1] h e (ix2 p k) = e (ix2 (0 : Fin 1) (0 : Fin 1)) := by
  refine broadcastInDim_apply _ h e (ix2 p k) (ix2 (0 : Fin 1) (0 : Fin 1)) fun a => ?_
  match a with
  | ⟨0, _⟩ => rfl
  | ⟨1, _⟩ => rfl

theorem rowSum_apply (h : S2048x256.ReducesTo [1] S2048) (hu : 0 < S_.numel) (x : FVec Ideal S2048x256 .f32) (p : Fin 2048) :
    Host.reduceAdd x (constant S_ .f32 0x00000000#32) h hu (ix1 p) = ∑ k : Fin 256, x (ix2 p k) := by
  have hr : S2048x256.Reduces [1] S2048 := by decide
  rw [hostReduceAdd_apply, Ideal.hostReduceAdd_single h hr, constant_apply, Ideal.ofBits_zero_f32, zero_add]
  refine Finset.sum_congr rfl fun k _ => congrArg x ?_
  funext ax
  match ax with
  | ⟨0, _⟩ => rfl
  | ⟨1, _⟩ => rfl

theorem hostSqrt_apply {s : Shape} (v : FVec Ideal s .f32) (i : s.Idx) : Host.sqrt v i = Ideal.sqrt (v i) := rfl

theorem dot1_apply (L R : FVec Ideal S2048x2048 .f32) (p q : Fin 2048) :
    Host.dotGeneral dot_S2048x2048_S2048x2048_S2048x2048_1_0_0_1_n_n none L R (ix2 p q)
      = ∑ k : Fin 2048, L (ix2 p k) * R (ix2 k q) :=
  StackMember.dotGeneral_plain_apply none L R p q

theorem dot2_apply (L : FVec Ideal S2048x2048 .f32) (R : FVec Ideal S2048x256 .f32) (p : Fin 2048) (q : Fin 256) :
    Host.dotGeneral dot_S2048x2048_S2048x256_S2048x256_1_0_0_1_n_n none L R (ix2 p q)
      = ∑ k : Fin 2048, L (ix2 p k) * R (ix2 k q) :=
  StackMember.dotGeneral_plain_apply none L R p q

theorem dot3_apply (L : FVec Ideal S2048x256 .f32) (R : FVec Ideal S256x256 .f32) (p : Fin 2048) (q : Fin 256) :
    Host.dotGeneral dot_S2048x256_S256x256_S2048x256_1_0_0_1_n_n none L R (ix2 p q)
      = ∑ k : Fin 256, L (ix2 p k) * R (ix2 k q) :=
  StackMember.dotGeneral_plain_apply none L R p q

theorem preT_apply (v a : FVec Ideal S2048x2048 .f32) (e : FVec Ideal S1x1 .f32) (W1 : FVec Ideal S256x2048 .f32)
    (b1 : FVec Ideal S256 .f32) (p : Fin 2048) (j : Fin 256) :
    preT (F := Ideal) v a e W1 b1 (ix2 p j) = Cert.Gin.preR v a e W1 b1 p j := by
  unfold preT Cert.Gin.preR
  rw [addf_apply, dot2_apply, bcastRow_apply]
  congr 1
  refine Finset.sum_congr rfl fun k _ => ?_
  rw [addf_apply, dot1_apply, mulf_apply, bcastE_apply, transpose_ix2_apply]

theorem divisorT_apply (i : S_.Idx) : divisorT (F := Ideal) i = Cert.Gin.c256 := by
  unfold divisorT
  rw [subf_apply, constant_apply, sitofp_apply, constantI_apply]
  show Cert.Gin.c256 - (((0#32 : BitVec 32).toInt : ℝ) : EReal) = Cert.Gin.c256
  simp

theorem cmp_pos : Ideal.cmp .ogt Cert.Gin.c256 (Ideal.ofBits .f32 0x00000000#32) = 1#1 := by
  have h : (0 : EReal) < ((256 : ℝ) : EReal) := by exact_mod_cast (by norm_num : (0 : ℝ) < 256)
  rw [Cert.Gin.c256_eq, Ideal.ofBits_zero_f32]
  unfold Ideal.cmp
  simp [h]

theorem meanT_apply (x : FVec Ideal S2048x256 .f32) (p : Fin 2048) (z : Fin 1) :
    meanT (F := Ideal) x (ix2 p z) = Cert.Gin.mean fun k => x (ix2 p k) := by
  unfold meanT Cert.Gin.mean
  rw [hostDivf_apply, bcastVec_apply, rowSum_apply, broadcastInDim_scalar_apply, constant_apply]

theorem varT_apply (x : FVec Ideal S2048x256 .f32) (p : Fin 2048) (z : Fin 1) :
    varT (F := Ideal) x (ix2 p z) = Cert.Gin.var fun k => x (ix2 p k) := by
  unfold varT Cert.Gin.var
  rw [select_apply, broadcastInDim_scalar_apply, cmpf_apply, divisorT_apply, constant_apply, Ideal.cmpf_def, cmp_pos,
    select_one, hostDivf_apply, bcastVec_apply, rowSum_apply, broadcastInDim_scalar_apply, divisorT_apply]
  congr 1
  refine Finset.sum_congr rfl fun k _ => ?_
  rw [mulf_apply, subf_apply, bcastCol_apply, meanT_apply]

theorem lnT_apply (x : FVec Ideal S2048x256 .f32) (g b : FVec Ideal S256 .f32) (p : Fin 2048) (j : Fin 256) :
    lnT (F := Ideal) x g b (ix2 p j)
      = Cert.Gin.lnRelu (fun k => x (ix2 p k)) (fun k => g (ix1 k)) (fun k => b (ix1 k)) j := by
  unfold lnT Cert.Gin.lnRelu
  rw [maximumf_apply, addf_apply, mulf_apply, hostDivf_apply, subf_apply, bcastCol_apply, bcastCol_apply, meanT_apply,
    hostSqrt_apply, addf_apply, varT_apply, bcastRow_apply, bcastRow_apply, broadcastInDim_scalar_apply,
    broadcastInDim_scalar_apply, constant_apply, constant_apply]

theorem denseT_apply (y : FVec Ideal S2048x256 .f32) (W2 : FVec Ideal S256x256 .f32) (b2 : FVec Ideal S256 .f32)
    (p : Fin 2048) (j : Fin 256) :
    denseT (F := Ideal) y W2 b2 (ix2 p j) = Cert.Gin.dense2 (fun k => y (ix2 p k)) W2 b2 j := by
  unfold denseT Cert.Gin.dense2
  rw [addf_apply, dot3_apply, bcastRow_apply]
  congr 1
  refine Finset.sum_congr rfl fun k _ => ?_
  rw [transpose_ix2_apply]

theorem layerT_apply (v a : FVec Ideal S2048x2048 .f32) (e : FVec Ideal S1x1 .f32) (W1 : FVec Ideal S256x2048 .f32)
    (b1 g1 be1 : FVec Ideal S256 .f32) (W2 : FVec Ideal S256x256 .f32) (b2 g2 be2 : FVec Ideal S256 .f32)
    (p : Fin 2048) (j : Fin 256) :
    layerT (F := Ideal) v a e W1 b1 g1 be1 W2 b2 g2 be2 (ix2 p j)
      = Cert.Gin.layer (Cert.Gin.preR v a e W1 b1) g1 be1 W2 b2 g2 be2 p j := by
  unfold layerT Cert.Gin.layer
  rw [lnT_apply]
  congr 1
  funext k
  rw [denseT_apply]
  congr 1
  funext k'
  rw [lnT_apply]
  congr 1
  funext k''
  exact preT_apply v a e W1 b1 p k''

end Cert.ReferenceIdeal.Hand

end
-- ==== Proof.RefRun.lean ====
import proofs.«163186_g6957847020190_cont_9to1_m_143_23_alg».proof.Proof.RefStage
import proofs.«163186_g6957847020190_cont_9to1_m_143_23_alg».proof.Proof.RefKeep
import proofs.«163186_g6957847020190_cont_9to1_m_143_23_alg».proof.Proof.RefRead

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference runs to the end, leaves its arguments alone, and its result is the layer of the arguments read the reference's way. -/
theorem run_value (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      (∀ (p : Fin 2048) (j : Fin 256), r.2.mem ((c.tc : Thread Cert.ReferenceIdeal.nD Cert.ReferenceIdeal.τ).loc Cert.ReferenceIdeal.main_v51) (ValueIdx.ix2 p j)
          = Cert.Gin.layer (Cert.Gin.preR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)))
              (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
              (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) p j)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run defs _ _).mono (fun _ h c =>
      ⟨fun p j => (congrFun ((h c main_v51).trans (after_ops_v51 (launchContents m c))) (ValueIdx.ix2 p j)).trans
          (layerT_apply _ _ _ _ _ _ _ _ _ _ _ p j),
        (h c main_arg0).trans (after_ops_arg0 _),
        (h c main_arg1).trans (after_ops_arg1 _),
        (h c main_arg2).trans (after_ops_arg2 _),
        (h c main_arg3).trans (after_ops_arg3 _),
        (h c main_arg4).trans (after_ops_arg4 _),
        (h c main_arg5).trans (after_ops_arg5 _),
        (h c main_arg6).trans (after_ops_arg6 _),
        (h c main_arg7).trans (after_ops_arg7 _),
        (h c main_arg8).trans (after_ops_arg8 _),
        (h c main_arg9).trans (after_ops_arg9 _),
        (h c main_arg10).trans (after_ops_arg10 _)⟩)
    (run_after m ρ)

end Cert.ReferenceIdeal.Hand

end
-- ==== Proof.Finite.lean ====
import proofs.«163186_g6957847020190_cont_9to1_m_143_23_alg».proof.Proof.Spec
import proofs.«163186_g6957847020190_cont_9to1_m_143_23_alg».proof.Pre_finite_inputs
import proofs.«163186_g6957847020190_cont_9to1_m_143_23_alg».proof.Proof.Gen.Pre_finite_inputs
import Idealize.ShloMosaic.Lib.ReduceAll

noncomputable section

namespace Cert.Gin

open Idealize.ShloMosaic Idealize.ShloMosaic.ValueIdx

theorem infW_eq : Ideal.ofBits .f32 0x7F800000#32 = ⊤ := by simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [infW_eq] at h
  induction x using EReal.rec with
  | bot => simp [Ideal.cmp] at h
  | coe r => exact ⟨r, rfl⟩
  | top => simp [Ideal.cmp] at h

theorem allReal_of_all {s : Shape} {axes : List (Fin s.rank)} (x : s.Idx → EReal)
    (bc : (⟨0, ![]⟩ : Shape).BroadcastsInDim s (![] : Fin 0 → Fin s.rank))
    (hr : s.ReducesTo axes (⟨0, ![]⟩ : Shape)) (hu : 0 < (⟨0, ![]⟩ : Shape).numel) (j : (⟨0, ![]⟩ : Shape).Idx)
    (e : Host.reduce IntOp.andi
        (cmpf (F := Ideal) (φ := .f32) .olt (Host.absf (F := Ideal) (φ := .f32) x)
          (broadcastInDim s ![] bc (constant (F := Ideal) (⟨0, ![]⟩ : Shape) .f32 0x7F800000#32)))
        (constantI (⟨0, ![]⟩ : Shape) 1 1#1) hr hu j = 1#1) :
    AllReal x := by
  intro i
  exact real_of_abs_lt_inf (x i) (Host.reduce_andi_eq_one _ _ hr hu j e i (funext fun d => d.elim0))

/-- The precondition is the conjunction, array by array and entry by entry, of |x| < +∞. -/
theorem allReal_of_pre [Cert.Pre_finite_inputs.Facts]
    (x0 x1 : (⟨2, ![2048, 2048]⟩ : Shape).Idx → EReal) (x2 : (⟨2, ![1, 1]⟩ : Shape).Idx → EReal)
    (x3 : (⟨2, ![256, 2048]⟩ : Shape).Idx → EReal) (x4 x5 x6 : (⟨1, ![256]⟩ : Shape).Idx → EReal)
    (x7 : (⟨2, ![256, 256]⟩ : Shape).Idx → EReal) (x8 x9 x10 : (⟨1, ![256]⟩ : Shape).Idx → EReal)
    (h : Cert.Pre_finite_inputs.fn (F := Ideal) x0 x1 x2 x3 x4 x5 x6 x7 x8 x9 x10 = (fun _ => 1#1)) :
    AllReal x0 ∧ AllReal x1 ∧ AllReal x2 ∧ AllReal x3 ∧ AllReal x4 ∧ AllReal x5 ∧ AllReal x6 ∧ AllReal x7 ∧
      AllReal x8 ∧ AllReal x9 ∧ AllReal x10 := by
  have e := congrFun h ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨e0, e1⟩, e2⟩, e3⟩, e4⟩, e5⟩, e6⟩, e7⟩, e8⟩, e9⟩, e10⟩ := e
  exact ⟨allReal_of_all _ _ _ _ _ e0, allReal_of_all _ _ _ _ _ e1, allReal_of_all _ _ _ _ _ e2,
    allReal_of_all _ _ _ _ _ e3, allReal_of_all _ _ _ _ _ e4, allReal_of_all _ _ _ _ _ e5,
    allReal_of_all _ _ _ _ _ e6, allReal_of_all _ _ _ _ _ e7, allReal_of_all _ _ _ _ _ e8,
    allReal_of_all _ _ _ _ _ e9, allReal_of_all _ _ _ _ _ e10⟩

end Cert.Gin

end
-- ==== Proof.lean ====
/-
  One graph layer, relu (LN₂ (relu (LN₁ ((a·v + ε·v)·W1ᵀ + b1)) · W2ᵀ + b2)) with LN the row-wise normalisation by mean
  and variance, computed by a kernel over four column blocks of a and by a straight-line reference. The kernel forms
  a·(v·W1ᵀ) + ε·(v·W1ᵀ) and multiplies by the reciprocal square root of the variance; the reference forms (a·v + ε·v)·W1ᵀ
  and divides by the square root. On finite arguments the two agree by distributivity and the exchange of two finite sums.
-/
import proofs.«163186_g6957847020190_cont_9to1_m_143_23_alg».proof.Defs
import proofs.«163186_g6957847020190_cont_9to1_m_143_23_alg».proof.Proof.Gen.Kernel
import proofs.«163186_g6957847020190_cont_9to1_m_143_23_alg».proof.Proof.Gen.KernelIdeal
import proofs.«163186_g6957847020190_cont_9to1_m_143_23_alg».proof.Proof.Gen.ReferenceIdeal
import proofs.«163186_g6957847020190_cont_9to1_m_143_23_alg».proof.Proof.Gen.Pre_finite_inputs
import proofs.«163186_g6957847020190_cont_9to1_m_143_23_alg».proof.Proof.OneText
import proofs.«163186_g6957847020190_cont_9to1_m_143_23_alg».proof.Proof.KI.Claims
import proofs.«163186_g6957847020190_cont_9to1_m_143_23_alg».proof.Proof.KI.ValueOut
import proofs.«163186_g6957847020190_cont_9to1_m_143_23_alg».proof.Proof.RefRun
import proofs.«163186_g6957847020190_cont_9to1_m_143_23_alg».proof.Proof.Algebra
import proofs.«163186_g6957847020190_cont_9to1_m_143_23_alg».proof.Proof.Finite

set_option maxRecDepth 16384

noncomputable section

namespace Cert.Proof

open Idealize.ShloMosaic Idealize.ShloMosaic.TcCoe Idealize.SL.Sem
open Cert.KernelIdeal Cert.KernelIdeal.Hand

/-- The kernel as printed and its idealization are one program text, and the run holds at every reading of floats. -/
theorem frame_Kernel : Cert.frame_Kernel := fun m ρ _ =>
  (congrArg (fun d => θ_run d _ _ _) (defs_Kernel_eq (F := Bits))).mpr
    ((θ_run (defs (F := Bits)) _ _).mono (fun r h c => (claims_of_post m c r.2.mem (h c)).2) (run_main (F := Bits) m ρ))

theorem frame_KernelIdeal : Cert.frame_KernelIdeal := fun m ρ _ =>
  (θ_run (defs (F := Ideal)) _ _).mono (fun r h c => (claims_of_post m c r.2.mem (h c)).2) (run_main (F := Ideal) m ρ)

theorem frame_ReferenceIdeal : Cert.frame_ReferenceIdeal := fun m ρ _ =>
  (θ_run (Cert.ReferenceIdeal.defs (F := Ideal)) _ _).mono (fun _ h c => (h c).2) (Cert.ReferenceIdeal.Hand.run_value m ρ)

theorem preserves : Cert.preserves_Kernel_KernelIdeal := trivial

/-- Both results are the specification's layer of the arguments, the kernel's from its association of the first affine
    map and the reference's from the other; finite arguments make the two associations equal. -/
theorem algebraic : Cert.algebraic_KernelIdeal_ReferenceIdeal := by
  intro m ρ m' ρ' hpre hagree
  refine ⟨fun c => outC (F := Ideal) m c,
    (θ_run (defs (F := Ideal)) _ _).mono (fun r h c => claims_of_post m c r.2.mem (h c)) (run_main (F := Ideal) m ρ), ?_⟩
  refine (θ_run (Cert.ReferenceIdeal.defs (F := Ideal)) _ _).mono (fun r h c => ⟨?_, (h c).2⟩)
    (Cert.ReferenceIdeal.Hand.run_value m' ρ')
  obtain ⟨a0, a1, a2, a3, a4, a5, a6, a7, a8, a9, a10⟩ := hagree c
  obtain ⟨r0, r1, r2, r3, r4, -⟩ := Cert.Gin.allReal_of_pre _ _ _ _ _ _ _ _ _ _ _ (hpre c)
  funext i
  obtain ⟨p, j, rfl⟩ : ∃ (p : Fin 2048) (j : Fin 256), i = ValueIdx.ix2 p j := ⟨i 0, i 1, ValueIdx.eq_ix2 i⟩
  refine ((h c).1 p j).trans ?_
  rw [a0, a1, a2, a3, a4, a5, a6, a7, a8, a9, a10]
  exact (congrArg (fun pre => Cert.Gin.layer pre _ _ _ _ _ _ p j)
    (funext fun r => funext fun k => (Cert.Gin.preK_eq_preR _ _ _ _ _ r0 r1 r2 r3 r4 r k).symm)).trans
    (outC_apply m c p j).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
